-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩

class Facts : Prop where
  bcast_S_S12288x512 : S_.BroadcastsInDim S12288x512 (![] : Fin 0 → Fin S12288x512.rank)
  reducesTo_S12288x512_S_d0_1 : S12288x512.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  reducesTo_S12288x12288_S12288_d1 : S12288x12288.ReducesTo [1] S12288
  bcast_S_S12288 : S_.BroadcastsInDim S12288 (![] : Fin 0 → Fin S12288.rank)
  reducesTo_S12288_S_d0 : S12288.ReducesTo [0] S_

variable [Facts]

def fn_part2 {F : FTy → Type} [FloatOps F] (main_arg1 : FVec F S12288x12288 .f32) (main_v28 : IVec S_ 1) (main_v34 : FVec F S12288x12288 .f32) : IVec S_ 1 :=
  let main_v35 : FVec F S12288x12288 .f32 := addf main_arg1 main_v34
  let main_cst_11 : FVec F S_ .f32 := constant S_ .f32 0x00000000#32
  let main_v36 : FVec F S12288 .f32 := (fun x v => Host.reduceAdd x v reducesTo_S12288x12288_S12288_d1 h_S_) main_v35 main_cst_11
  let main_cst_12 : FVec F S_ .f32 := constant S_ .f32 0x00000000#32
  let main_v37 : FVec F S12288 .f32 := broadcastInDim S12288 ![] bcast_S_S12288 main_cst_12
  let main_v38 : IVec S12288 1 := cmpf .ogt main_v36 main_v37
  let main_c_13 : IVec S_ 1 := constantI S_ 1 1#1
  let main_v39 : IVec S_ 1 := (fun x v => Host.reduce IntOp.andi x v reducesTo_S12288_S_d0 h_S_) main_v38 main_c_13
  let main_v40 : IVec S_ 1 := andi main_v28 main_v39
  main_v40

def fn_part1 {F : FTy → Type} [FloatOps F] (main_arg1 : FVec F S12288x12288 .f32) (main_arg4 : FVec F S16x40 .f32) (main_arg5 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg4
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S12288x12288 32 := iotaInDim S12288x12288 32 0
  let main_v30 : IVec S12288x12288 32 := iotaInDim S12288x12288 32 1
  let main_c_10 : IVec S_ 32 := constantI S_ 32 0#32
  let main_v31 : IVec S12288x12288 32 := broadcastInDim S12288x12288 ![] bcast_S_S12288x12288 main_c_10
  let main_v32 : IVec S12288x12288 32 := addi main_v29 main_v31
  let main_v33 : IVec S12288x12288 1 := cmpi .eq main_v32 main_v30
  let main_v34 : FVec F S12288x12288 .f32 := uitofp .f32 main_v33
  fn_part2 (F := F) main_arg1 main_v28 main_v34

def fn {F : FTy → Type} [FloatOps F] (main_arg0 : FVec F S12288x512 .f32) (main_arg1 : FVec F S12288x12288 .f32) (main_arg2 : FVec F S512x16 .f32) (main_arg3 : FVec F S16 .f32) (main_arg4 : FVec F S16x40 .f32) (main_arg5 : FVec F S40 .f32) : IVec S_ 1 :=
  let main_v0 : FVec F S12288x512 .f32 := Host.absf main_arg0
  let main_cst : FVec F S_ .f32 := constant S_ .f32 0x7F800000#32
  let main_v1 : FVec F S12288x512 .f32 := broadcastInDim S12288x512 ![] bcast_S_S12288x512 main_cst
  let main_v2 : IVec S12288x512 1 := cmpf .olt main_v0 main_v1
  let main_c : IVec S_ 1 := constantI S_ 1 1#1
  let main_v3 : IVec S_ 1 := (fun x v => Host.reduce IntOp.andi x v reducesTo_S12288x512_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S512x16 .f32 := Host.absf main_arg2
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg4 main_arg5 main_v13 main_v16
-- ==== Kernel.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S12288x1 : Shape := ⟨2, ![12288, 1]⟩
abbrev S2048x1024 : Shape := ⟨2, ![2048, 1024]⟩
abbrev S2048x1 : Shape := ⟨2, ![2048, 1]⟩
abbrev S2048 : Shape := ⟨1, ![2048]⟩
abbrev S12288x16 : Shape := ⟨2, ![12288, 16]⟩
abbrev S2048x512 : Shape := ⟨2, ![2048, 512]⟩
abbrev S2048x16 : Shape := ⟨2, ![2048, 16]⟩
abbrev S1x16 : Shape := ⟨2, ![1, 16]⟩
abbrev S12288x40 : Shape := ⟨2, ![12288, 40]⟩
abbrev S2048x3072 : Shape := ⟨2, ![2048, 3072]⟩
abbrev S3072x16 : Shape := ⟨2, ![3072, 16]⟩
abbrev S2048x40 : Shape := ⟨2, ![2048, 40]⟩
abbrev S1x40 : Shape := ⟨2, ![1, 40]⟩
abbrev S3072x40 : Shape := ⟨2, ![3072, 40]⟩

abbrev nBuf : Space → Nat
  | .hbm => 13
  | .vmem => 39
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x12288, .bf16⟩
  | .hbm, ⟨7, _⟩ => ⟨S12288x1, .f32⟩
  | .hbm, ⟨8, _⟩ => ⟨S12288x16, .bf16⟩
  | .hbm, ⟨9, _⟩ => ⟨S1x16, .f32⟩
  | .hbm, ⟨10, _⟩ => ⟨S12288x40, .bf16⟩
  | .hbm, ⟨11, _⟩ => ⟨S1x40, .f32⟩
  | .hbm, ⟨12, _⟩ => ⟨S12288x40, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x512, .f32⟩
  | .local _ .vmem, ⟨8, _⟩ => ⟨S2048x512, .f32⟩
  | .local _ .vmem, ⟨9, _⟩ => ⟨S512x16, .f32⟩
  | .local _ .vmem, ⟨10, _⟩ => ⟨S2048x1, .f32⟩
  | .local _ .vmem, ⟨11, _⟩ => ⟨S2048x1, .f32⟩
  | .local _ .vmem, ⟨12, _⟩ => ⟨S2048x16, .bf16⟩
  | .local _ .vmem, ⟨13, _⟩ => ⟨S2048x16, .bf16⟩
  | .local _ .vmem, ⟨14, _⟩ => ⟨S2048x3072, .bf16⟩
  | .local _ .vmem, ⟨15, _⟩ => ⟨S2048x3072, .bf16⟩
  | .local _ .vmem, ⟨16, _⟩ => ⟨S3072x16, .bf16⟩
  | .local _ .vmem, ⟨17, _⟩ => ⟨S3072x16, .bf16⟩
  | .local _ .vmem, ⟨18, _⟩ => ⟨S2048x16, .bf16⟩
  | .local _ .vmem, ⟨19, _⟩ => ⟨S2048x16, .bf16⟩
  | .local _ .vmem, ⟨20, _⟩ => ⟨S2048x1, .f32⟩
  | .local _ .vmem, ⟨21, _⟩ => ⟨S2048x1, .f32⟩
  | .local _ .vmem, ⟨22, _⟩ => ⟨S1x16, .f32⟩
  | .local _ .vmem, ⟨23, _⟩ => ⟨S16x40, .f32⟩
  | .local _ .vmem, ⟨24, _⟩ => ⟨S2048x40, .bf16⟩
  | .local _ .vmem, ⟨25, _⟩ => ⟨S2048x40, .bf16⟩
  | .local _ .vmem, ⟨26, _⟩ => ⟨S2048x16, .f32⟩
  | .local _ .vmem, ⟨27, _⟩ => ⟨S2048x3072, .bf16⟩
  | .local _ .vmem, ⟨28, _⟩ => ⟨S2048x3072, .bf16⟩
  | .local _ .vmem, ⟨29, _⟩ => ⟨S3072x40, .bf16⟩
  | .local _ .vmem, ⟨30, _⟩ => ⟨S3072x40, .bf16⟩
  | .local _ .vmem, ⟨31, _⟩ => ⟨S2048x40, .bf16⟩
  | .local _ .vmem, ⟨32, _⟩ => ⟨S2048x40, .bf16⟩
  | .local _ .vmem, ⟨33, _⟩ => ⟨S2048x1, .f32⟩
  | .local _ .vmem, ⟨34, _⟩ => ⟨S2048x1, .f32⟩
  | .local _ .vmem, ⟨35, _⟩ => ⟨S1x40, .f32⟩
  | .local _ .vmem, ⟨36, _⟩ => ⟨S2048x40, .f32⟩
  | .local _ .vmem, ⟨37, _⟩ => ⟨S2048x40, .f32⟩
  | .local _ .vmem, ⟨38, _⟩ => ⟨S2048x40, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨2, ![6, 12], ![false, false]⟩

def k0_cond2 (i : grid0.Coords) : BitVec 1 :=
  let arg1 : BitVec 32 := BitVec.ofNat 32 (i 1).val
  let c11_i32 : BitVec 32 := 11#32
  let v13 : BitVec 1 := Scalar.cmpi .eq arg1 c11_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![6, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S3072x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x16 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x40 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![6, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x3072 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S3072x40 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x40 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S1x40 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2048x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  bitsLt_bf16_f32 : FTy.bits .bf16 < FTy.bits .f32
  packedbf16_S2048x1024_S2048x1024_0_0 : (Rect.unit (s := S2048x1024) ![0, 0] S2048x1024.size inb_S2048x1024_S2048x1024_0_0).PackedRows (EltTy.packing .bf16)
  inb_S2048x512_S2048x512_0_0 : ∀ a, (![0, 0] : Fin 2 → Nat) a + S2048x512.size a ≤ S2048x512.size a
  h_S2048x512 : 0 < S2048x512.numel
  inb_S512x16_S512x16_0_0 : ∀ a, (![0, 0] : Fin 2 → Nat) a + S512x16.size a ≤ S512x16.size a
  h_S512x16 : 0 < S512x16.numel
  broadcasts_S2048x1_S2048x16 : S2048x1.Broadcasts S2048x16
  inb_S2048x16_S2048x16_0_0 : ∀ a, (![0, 0] : Fin 2 → Nat) a + S2048x16.size a ≤ S2048x16.size a
  h_S2048x16 : 0 < S2048x16.numel
  packedbf16_S2048x16_S2048x16_0_0 : (Rect.unit (s := S2048x16) ![0, 0] S2048x16.size inb_S2048x16_S2048x16_0_0).PackedRows (EltTy.packing .bf16)
  shapeCasts_S16_S1x16 : S16.ShapeCasts S1x16
  shapeCasts_S2048x16_S2048x16 : S2048x16.ShapeCasts S2048x16
  inb_S2048x3072_S2048x3072_0_0 : ∀ a, (![0, 0] : Fin 2 → Nat) a + S2048x3072.size a ≤ S2048x3072.size a
  h_S2048x3072 : 0 < S2048x3072.numel
  shapeCasts_S2048x3072_S2048x3072 : S2048x3072.ShapeCasts S2048x3072
  inb_S3072x16_S3072x16_0_0 : ∀ a, (![0, 0] : Fin 2 → Nat) a + S3072x16.size a ≤ S3072x16.size a
  h_S3072x16 : 0 < S3072x16.numel
  shapeCasts_S3072x16_S3072x16 : S3072x16.ShapeCasts S3072x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x40_S16x40_0_0 : ∀ a, (![0, 0] : Fin 2 → Nat) a + S16x40.size a ≤ S16x40.size a
  h_S16x40 : 0 < S16x40.numel
  broadcasts_S2048x1_S2048x40 : S2048x1.Broadcasts S2048x40
  inb_S2048x40_S2048x40_0_0 : ∀ a, (![0, 0] : Fin 2 → Nat) a + S2048x40.size a ≤ S2048x40.size a
  h_S2048x40 : 0 < S2048x40.numel
  packedbf16_S2048x40_S2048x40_0_0 : (Rect.unit (s := S2048x40) ![0, 0] S2048x40.size inb_S2048x40_S2048x40_0_0).PackedRows (EltTy.packing .bf16)
  shapeCasts_S40_S1x40 : S40.ShapeCasts S1x40
  shapeCasts_S2048x40_S2048x40 : S2048x40.ShapeCasts S2048x40
  inb_S3072x40_S3072x40_0_0 : ∀ a, (![0, 0] : Fin 2 → Nat) a + S3072x40.size a ≤ S3072x40.size a
  h_S3072x40 : 0 < S3072x40.numel
  shapeCasts_S3072x40_S3072x40 : S3072x40.ShapeCasts S3072x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2048x40 : S1x40.Broadcasts S2048x40
  reduces_S2048x40_S2048 : S2048x40.Reduces [1] S2048
  dot_S2048x512_S512x16_S2048x16_1_0_0_1_n_n_wf : DotDims.WF S2048x512 S512x16 S2048x16 [1] [0] [0] [1] [] []
  dot_S2048x3072_S3072x16_S2048x16_1_0_0_1_n_n_wf : DotDims.WF S2048x3072 S3072x16 S2048x16 [1] [0] [0] [1] [] []
  dot_S2048x16_S16x40_S2048x40_1_0_0_1_n_n_wf : DotDims.WF S2048x16 S16x40 S2048x40 [1] [0] [0] [1] [] []
  dot_S2048x3072_S3072x40_S2048x40_1_0_0_1_n_n_wf : DotDims.WF S2048x3072 S3072x40 S2048x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S12288x12288.size a
  hwx0_0 : ∀ i : grid0.Coords, EltTy.bits .f32 = 32 ∨ (Rect.block (s := S12288x12288) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S12288x12288.size a
  hwx0_1 : ∀ i : grid0.Coords, EltTy.bits .bf16 = 32 ∨ (Rect.block (s := S12288x12288) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S12288x1.size a
  hwx0_2 : ∀ i : grid0.Coords, EltTy.bits .f32 = 32 ∨ (Rect.block (s := S12288x1) S2048x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S12288x512.size a
  hwx1_0 : ∀ i : grid1.Coords, EltTy.bits .f32 = 32 ∨ (Rect.block (s := S12288x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x16.size a ≤ S512x16.size a
  hwx1_1 : ∀ i : grid1.Coords, EltTy.bits .f32 = 32 ∨ (Rect.block (s := S512x16) S512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S12288x1.size a
  hwx1_2 : ∀ i : grid1.Coords, EltTy.bits .f32 = 32 ∨ (Rect.block (s := S12288x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S12288x16.size a
  hwx1_3 : ∀ i : grid1.Coords, EltTy.bits .bf16 = 32 ∨ (Rect.block (s := S12288x16) S2048x16.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x3072.size a ≤ S12288x12288.size a
  hwx2_0 : ∀ i : grid2.Coords, EltTy.bits .bf16 = 32 ∨ (Rect.block (s := S12288x12288) S2048x3072.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3072x16.size a ≤ S12288x16.size a
  hwx2_1 : ∀ i : grid2.Coords, EltTy.bits .bf16 = 32 ∨ (Rect.block (s := S12288x16) S3072x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x16.size a ≤ S12288x16.size a
  hwx2_2 : ∀ i : grid2.Coords, EltTy.bits .bf16 = 32 ∨ (Rect.block (s := S12288x16) S2048x16.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S12288x1.size a
  hwx2_3 : ∀ i : grid2.Coords, EltTy.bits .f32 = 32 ∨ (Rect.block (s := S12288x1) S2048x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x40.size a ≤ S16x40.size a
  hwx2_5 : ∀ i : grid2.Coords, EltTy.bits .f32 = 32 ∨ (Rect.block (s := S16x40) S16x40.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x40.size a ≤ S12288x40.size a
  hwx2_6 : ∀ i : grid2.Coords, EltTy.bits .bf16 = 32 ∨ (Rect.block (s := S12288x40) S2048x40.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x3072.size a ≤ S12288x12288.size a
  hwx3_0 : ∀ i : grid3.Coords, EltTy.bits .bf16 = 32 ∨ (Rect.block (s := S12288x12288) S2048x3072.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3072x40.size a ≤ S12288x40.size a
  hwx3_1 : ∀ i : grid3.Coords, EltTy.bits .bf16 = 32 ∨ (Rect.block (s := S12288x40) S3072x40.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x40.size a ≤ S12288x40.size a
  hwx3_2 : ∀ i : grid3.Coords, EltTy.bits .bf16 = 32 ∨ (Rect.block (s := S12288x40) S2048x40.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S12288x1.size a
  hwx3_3 : ∀ i : grid3.Coords, EltTy.bits .f32 = 32 ∨ (Rect.block (s := S12288x1) S2048x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x40.size a ≤ S1x40.size a
  hwx3_4 : ∀ i : grid3.Coords, EltTy.bits .f32 = 32 ∨ (Rect.block (s := S1x40) S1x40.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x40.size a ≤ S12288x40.size a
  hwx3_5 : ∀ i : grid3.Coords, EltTy.bits .f32 = 32 ∨ (Rect.block (s := S12288x40) S2048x40.size (cc3_transform_5 i) (hinb3_5 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x3072_S3072x16_S2048x16_1_0_0_1_n_n : DotDims S2048x3072 S3072x16 S2048x16 where
  lhsContracting := [1]
  rhsContracting := [0]
  lhsNonContracting := [0]
  rhsNonContracting := [1]
  lhsBatch := []
  rhsBatch := []
  wf := dot_S2048x3072_S3072x16_S2048x16_1_0_0_1_n_n_wf
def dot_S2048x16_S16x40_S2048x40_1_0_0_1_n_n : DotDims S2048x16 S16x40 S2048x40 where
  lhsContracting := [1]
  rhsContracting := [0]
  lhsNonContracting := [0]
  rhsNonContracting := [1]
  lhsBatch := []
  rhsBatch := []
  wf := dot_S2048x16_S16x40_S2048x40_1_0_0_1_n_n_wf
def dot_S2048x3072_S3072x40_S2048x40_1_0_0_1_n_n : DotDims S2048x3072 S3072x40 S2048x40 where
  lhsContracting := [1]
  rhsContracting := [0]
  lhsNonContracting := [0]
  rhsNonContracting := [1]
  lhsBatch := []
  rhsBatch := []
  wf := dot_S2048x3072_S3072x40_S2048x40_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S2048x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2048x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S2048x3072.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S3072x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2048x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S16x40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S2048x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v0_0) S2048x3072.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S3072x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S2048x40.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0_1) S2048x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x40.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5) S2048x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S12288x512 : Shape := ⟨2, ![12288, 512]⟩
abbrev S12288x12288 : Shape := ⟨2, ![12288, 12288]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩
abbrev S12288 : Shape := ⟨1, ![12288]⟩
abbrev S12288x1 : Shape := ⟨2, ![12288, 1]⟩
abbrev S1x12288 : Shape := ⟨2, ![1, 12288]⟩
abbrev S12288x16 : Shape := ⟨2, ![12288, 16]⟩
abbrev S1x16 : Shape := ⟨2, ![1, 16]⟩
abbrev S12288x40 : Shape := ⟨2, ![12288, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S12288x12288, .f32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S12288x12288, .i32⟩
  | .hbm, ⟨7, _⟩ => ⟨S12288x12288, .i32⟩
  | .hbm, ⟨8, _⟩ => ⟨S_, .i32⟩
  | .hbm, ⟨9, _⟩ => ⟨S12288x12288, .i32⟩
  | .hbm, ⟨10, _⟩ => ⟨S12288x12288, .i32⟩
  | .hbm, ⟨11, _⟩ => ⟨S12288x12288, .i1⟩
  | .hbm, ⟨12, _⟩ => ⟨S12288x12288, .f32⟩
  | .hbm, ⟨13, _⟩ => ⟨S12288x12288, .f32⟩
  | .hbm, ⟨14, _⟩ => ⟨S_, .f32⟩
  | .hbm, ⟨15, _⟩ => ⟨S12288, .f32⟩
  | .hbm, ⟨16, _⟩ => ⟨S12288, .f32⟩
  | .hbm, ⟨17, _⟩ => ⟨S12288x1, .f32⟩
  | .hbm, ⟨18, _⟩ => ⟨S12288x12288, .f32⟩
  | .hbm, ⟨19, _⟩ => ⟨S12288x12288, .f32⟩
  | .hbm, ⟨20, _⟩ => ⟨S1x12288, .f32⟩
  | .hbm, ⟨21, _⟩ => ⟨S12288x12288, .f32⟩
  | .hbm, ⟨22, _⟩ => ⟨S12288x12288, .f32⟩
  | .hbm, ⟨23, _⟩ => ⟨S12288x16, .f32⟩
  | .hbm, ⟨24, _⟩ => ⟨S12288x16, .f32⟩
  | .hbm, ⟨25, _⟩ => ⟨S1x16, .f32⟩
  | .hbm, ⟨26, _⟩ => ⟨S12288x16, .f32⟩
  | .hbm, ⟨27, _⟩ => ⟨S12288x16, .f32⟩
  | .hbm, ⟨28, _⟩ => ⟨S_, .f32⟩
  | .hbm, ⟨29, _⟩ => ⟨S12288x16, .f32⟩
  | .hbm, ⟨30, _⟩ => ⟨S12288x16, .f32⟩
  | .hbm, ⟨31, _⟩ => ⟨S12288x40, .f32⟩
  | .hbm, ⟨32, _⟩ => ⟨S12288x40, .f32⟩
  | .hbm, ⟨33, _⟩ => ⟨S1x40, .f32⟩
  | .hbm, ⟨34, _⟩ => ⟨S12288x40, .f32⟩
  | .hbm, ⟨35, _⟩ => ⟨S12288x40, .f32⟩
  | .hbm, ⟨36, _⟩ => ⟨S_, .f32⟩
  | .hbm, ⟨37, _⟩ => ⟨S12288, .f32⟩
  | .hbm, ⟨38, _⟩ => ⟨S_, .f32⟩
  | .hbm, ⟨39, _⟩ => ⟨S12288, .f32⟩
  | .hbm, ⟨40, _⟩ => ⟨S12288, .f32⟩
  | .hbm, ⟨41, _⟩ => ⟨S12288x1, .f32⟩
  | .hbm, ⟨42, _⟩ => ⟨S12288x40, .f32⟩
  | .hbm, ⟨43, _⟩ => ⟨S12288x40, .f32⟩
  | .hbm, ⟨44, _⟩ => ⟨S12288x40, .f32⟩
  | .hbm, ⟨45, _⟩ => ⟨S_, .f32⟩
  | .hbm, ⟨46, _⟩ => ⟨S12288, .f32⟩
  | .hbm, ⟨47, _⟩ => ⟨S12288x1, .f32⟩
  | .hbm, ⟨48, _⟩ => ⟨S12288x1, .f32⟩
  | .hbm, ⟨49, _⟩ => ⟨S12288x40, .f32⟩
  | .hbm, ⟨50, _⟩ => ⟨S12288x40, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v26 : Ref sig .tc := ⟨.hbm, 50, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S12288_S12288x1_0 : S12288.BroadcastsInDim S12288x1 (![0] : Fin 1 → Fin S12288x1.rank)
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S_S12288x16 : S_.BroadcastsInDim S12288x16 (![] : Fin 0 → Fin S12288x16.rank)
  bcast_S40_S1x40_1 : S40.BroadcastsInDim S1x40 (![1] : Fin 1 → Fin S1x40.rank)
  bcast_S1x40_S12288x40_0_1 : S1x40.BroadcastsInDim S12288x40 (![0, 1] : Fin 2 → Fin S12288x40.rank)
  reducesTo_S12288x40_S12288_d1 : S12288x40.ReducesTo [1] S12288
  bcast_S_S12288 : S_.BroadcastsInDim S12288 (![] : Fin 0 → Fin S12288.rank)
  bcast_S12288x1_S12288x40_0_1 : S12288x1.BroadcastsInDim S12288x40 (![0, 1] : Fin 2 → Fin S12288x40.rank)
  dot_S12288x512_S512x16_S12288x16_1_0_0_1_n_n_wf : DotDims.WF S12288x512 S512x16 S12288x16 [1] [0] [0] [1] [] []
  dot_S12288x12288_S12288x16_S12288x16_1_0_0_1_n_n_wf : DotDims.WF S12288x12288 S12288x16 S12288x16 [1] [0] [0] [1] [] []
  dot_S12288x16_S16x40_S12288x40_1_0_0_1_n_n_wf : DotDims.WF S12288x16 S16x40 S12288x40 [1] [0] [0] [1] [] []
  dot_S12288x12288_S12288x40_S12288x40_1_0_0_1_n_n_wf : DotDims.WF S12288x12288 S12288x40 S12288x40 [1] [0] [0] [1] [] []

variable [Facts₀]

def dot_S12288x512_S512x16_S12288x16_1_0_0_1_n_n : DotDims S12288x512 S512x16 S12288x16 where
  lhsContracting := [1]
  rhsContracting := [0]
  lhsNonContracting := [0]
  rhsNonContracting := [1]
  lhsBatch := []
  rhsBatch := []
  wf := dot_S12288x512_S512x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf
def dot_S12288x16_S16x40_S12288x40_1_0_0_1_n_n : DotDims S12288x16 S16x40 S12288x40 where
  lhsContracting := [1]
  rhsContracting := [0]
  lhsNonContracting := [0]
  rhsNonContracting := [1]
  lhsBatch := []
  rhsBatch := []
  wf := dot_S12288x16_S16x40_S12288x40_1_0_0_1_n_n_wf
def dot_S12288x12288_S12288x40_S12288x40_1_0_0_1_n_n : DotDims S12288x12288 S12288x40 S12288x40 where
  lhsContracting := [1]
  rhsContracting := [0]
  lhsNonContracting := [0]
  rhsNonContracting := [1]
  lhsBatch := []
  rhsBatch := []
  wf := dot_S12288x12288_S12288x40_S12288x40_1_0_0_1_n_n_wf

class Facts : Prop extends Facts₀ where

variable [Facts]
-- ==== Proof.KSame.lean ====
import proofs.«431332_j55946243997874_3_alg».proof.Defs

noncomputable section

namespace Cert.Proof

open Idealize.ShloMosaic

variable {F : FTy → Type} [FloatOps F] [Cert.Kernel.Facts] [Cert.KernelIdeal.Facts]

-- Label by label the two programs have the same kernel body.
theorem body0_same : (Cert.Kernel.defs₀ (F := F)) .tc 0 = (Cert.KernelIdeal.defs₀ (F := F)) .tc 0 := rfl
theorem body1_same : (Cert.Kernel.defs₀ (F := F)) .tc 1 = (Cert.KernelIdeal.defs₀ (F := F)) .tc 1 := rfl
theorem body2_same : (Cert.Kernel.defs₀ (F := F)) .tc 2 = (Cert.KernelIdeal.defs₀ (F := F)) .tc 2 := rfl
theorem body3_same : (Cert.Kernel.defs₀ (F := F)) .tc 3 = (Cert.KernelIdeal.defs₀ (F := F)) .tc 3 := rfl

-- Hence their body tables are equal.
theorem tc_same : (Cert.Kernel.defs₀ (F := F)) .tc = (Cert.KernelIdeal.defs₀ (F := F)) .tc :=
  funext fun l => match l with
    | 0 => body0_same
    | 1 => body1_same
    | 2 => body2_same
    | 3 => body3_same
    | ⟨_ + 4, h⟩ => absurd h (Nat.not_lt.2 (Nat.le_add_left _ _))

theorem defs₀_same : Cert.Kernel.defs₀ (F := F) = Cert.KernelIdeal.defs₀ (F := F) :=
  congrArg Defs.onTc tc_same

theorem defs_same : Cert.Kernel.defs (F := F) = Cert.KernelIdeal.defs (F := F) :=
  congrArg (Pipeline.defs Cert.KernelIdeal.pcfgs) defs₀_same

end Cert.Proof

end
-- ==== Proof.KIShared.lean ====
import proofs.«431332_j55946243997874_3_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg)

variable {F : FTy → Type} [FloatOps F]

local notation "𝕄" => MT nD τ sig Unit (Elt F) ℕ (UR sig nD τ) ℕ

section Twin

variable {cfg : Cfg sig Λ₀} {c : Dev nD} (dat : Dat τ (Elt F) Unit ℕ (UR sig nD τ) ℕ cfg c) {i j : Fin cfg.W}

/-- Input windows `i` and `j` read one array, and no other two windows share an array. -/
structure Twin (cfg : Cfg sig Λ₀) (i j : Fin cfg.W) : Prop where
  ne : i ≠ j
  same : Pipeline.arrRef cfg.spec i = Pipeline.arrRef cfg.spec j
  inj : ∀ w w', w ≠ i → w' ≠ i → Pipeline.arrRef cfg.spec w = Pipeline.arrRef cfg.spec w' → w = w'
  in_i : (cfg.win i).isOut = false
  in_j : (cfg.win j).isOut = false

/-- The two halves of the full share of one buffer compose to it. -/
theorem halves_join {b b' : Ref sig .tc} (e : b = b') (V : (b : Ref sig .tc) → Buf (Elt F) ((c : Thread nD τ).loc b)) (T : sProp 𝕄) :
    BI.sep (((c : Thread nD τ).loc b) ↦{(fullShare : PosShare TreeShare).left} V b) (BI.sep (((c : Thread nD τ).loc b') ↦{(fullShare : PosShare TreeShare).right} V b') T)
      = BI.sep (((c : Thread nD τ).loc b') ↦{fullShare} V b') T := by
  subst e
  exact equiv_iff.mp ⟨sep_assoc'.trans (sep_mono (pointsTo_share (PosShare.mem_left_op_right fullShare)).2 .rfl),
    (sep_mono (pointsTo_share (PosShare.mem_left_op_right fullShare)).1 .rfl).trans sep_assoc⟩

/-- The arrays at contents read off `V` are the distinct buffers behind them: the twins hold halves, the others wholes. -/
theorem arrays_eq_arrBufs (T : Twin cfg i j) (hw : ∀ w, (cfg.spec w).arr.IsWhole)
    (V : (b : Ref sig .tc) → Buf (Elt F) ((c : Thread nD τ).loc b))
    (G : (w : Fin cfg.W) → Buf (Elt F) ((cfg.win w).arr.view.loc (c : Thread nD τ)))
    (hG : ∀ w, G w = V (Pipeline.arrRef cfg.spec w))
    (hqi : dat.q i = (fullShare : PosShare TreeShare).left) (hqj : dat.q j = (fullShare : PosShare TreeShare).right)
    (hq : ∀ w, w ≠ i → w ≠ j → dat.q w = fullShare) :
    (dat.arrays G : sProp 𝕄) = Pipeline.arrBufs cfg.spec c V := by
  classical
  have sh : ∀ w, w ≠ i → w ≠ j → dat.share w = fullShare := fun w h1 h2 => by
    unfold Dat.share; split
    · rfl
    · exact hq w h1 h2
  have shi : dat.share i = (fullShare : PosShare TreeShare).left := by
    unfold Dat.share; rw [if_neg (Bool.eq_false_iff.mp T.in_i)]; exact hqi
  have shj : dat.share j = (fullShare : PosShare TreeShare).right := by
    unfold Dat.share; rw [if_neg (Bool.eq_false_iff.mp T.in_j)]; exact hqj
  have hΦ : ∀ w, ((cfg.win w).arr.view.loc (c : Thread nD τ) ↦[(cfg.win w).arr.view.set]{dat.share w} G w : sProp 𝕄)
      = (((c : Thread nD τ).loc (Pipeline.arrRef cfg.spec w)) ↦{dat.share w} V (Pipeline.arrRef cfg.spec w)) :=
    fun w => by rw [(hw w).set_eq_univ, hG]
  have hj : j ∈ (Finset.univ : Finset (Fin cfg.W)).erase i := Finset.mem_erase.mpr ⟨T.ne.symm, Finset.mem_univ j⟩
  have himg : Finset.univ.image (Pipeline.arrRef cfg.spec) = (Finset.univ.erase i).image (Pipeline.arrRef cfg.spec) := by
    conv_lhs => rw [← Finset.insert_erase (Finset.mem_univ i), Finset.image_insert]
    exact Finset.insert_eq_of_mem (by rw [T.same]; exact Finset.mem_image_of_mem _ hj)
  have hfold : bigSep ((Finset.univ.erase i).image (Pipeline.arrRef cfg.spec)) (fun b => (((c : Thread nD τ).loc b) ↦{fullShare} V b : sProp 𝕄))
      = bigSep (Finset.univ.erase i) fun w => (((c : Thread nD τ).loc (Pipeline.arrRef cfg.spec w)) ↦{fullShare} V (Pipeline.arrRef cfg.spec w) : sProp 𝕄) :=
    Finset.fold_image fun w hw w' hw' e => T.inj w w' (Finset.ne_of_mem_erase hw) (Finset.ne_of_mem_erase hw') e
  unfold Dat.arrays Pipeline.arrBufs
  rw [himg, hfold, bigSep_univ_split i, bigSep_erase hj, bigSep_erase hj, hΦ i, hΦ j, shi, shj, halves_join T.same V]
  congr 1
  exact bigSep_congr fun w hw => by
    rw [hΦ w, sh w (Finset.ne_of_mem_erase (Finset.mem_of_mem_erase hw)) (Finset.ne_of_mem_erase hw)]

variable (T : Twin cfg i j) (hu : ∀ w, (Pipeline.arrRef cfg.spec w).isScoped = false) (hw : ∀ w, (cfg.spec w).arr.IsWhole)
  (V V' : (b : Ref sig .tc) → Buf (Elt F) ((c : Thread nD τ).loc b))
  (hA : ∀ w, dat.A w = V (Pipeline.arrRef cfg.spec w))
  (hqi : dat.q i = (fullShare : PosShare TreeShare).left) (hqj : dat.q j = (fullShare : PosShare TreeShare).right)
  (hq : ∀ w, w ≠ i → w ≠ j → dat.q w = fullShare)

include T hu hw hA hqi hqj hq

/-- Entering the call: the buffers at `V` are the call's arrays at their entry contents and the rest. -/
theorem twin_entry :
    (unscopedBufs c V : sProp 𝕄) ⊢ iprop(dat.arrays (dat.arrAt · 0) ∗ Pipeline.unscopedRest cfg.spec c V) :=
  (Entails.of_eq (Pipeline.unscopedBufs_split₀ (fun _ : Unit => cfg) () hu c V)).trans
    (sep_mono (Entails.of_eq (arrays_eq_arrBufs dat T hw V _ (fun w => hA w) hqi hqj hq).symm) .rfl)

/-- Leaving it: only window `o` is written, so `V'` need only have its array as written and agree with `V` elsewhere. -/
theorem twin_exit (o : Fin cfg.W) (hin : ∀ w, w ≠ o → (cfg.win w).isOut = false)
    (hne : ∀ w, w ≠ o → Pipeline.arrRef cfg.spec w ≠ Pipeline.arrRef cfg.spec o)
    (hout : dat.arrAt o cfg.N = V' (Pipeline.arrRef cfg.spec o)) (hrest : ∀ b, b ≠ Pipeline.arrRef cfg.spec o → V' b = V b) :
    iprop(dat.arrays (dat.arrAt · cfg.N) ∗ Pipeline.unscopedRest cfg.spec c V) ⊢ (unscopedBufs c V' : sProp 𝕄) := by
  rw [Pipeline.unscopedBufs_split₀ (fun _ : Unit => cfg) () hu c V']
  refine sep_mono (Entails.of_eq (arrays_eq_arrBufs dat T hw V' _ (fun w => ?_) hqi hqj hq)) (Entails.of_eq ?_)
  · by_cases h : w = o
    · subst h; exact hout
    · show dat.arrAt w cfg.N = V' (Pipeline.arrRef cfg.spec w)
      rw [Dat.arrAt_in dat w (hin w h), hA w, hrest _ (hne w h)]
  · unfold Pipeline.unscopedRest
    exact bigSep_congr fun b hb => by
      rw [hrest b fun e => (Finset.mem_sdiff.mp hb).2 (e ▸ Finset.mem_image_of_mem _ (Finset.mem_univ o))]

end Twin

theorem twin2 : Twin cfg2 1 2 := ⟨by decide, by decide, by decide, by decide, by decide⟩
theorem twin3 : Twin cfg3 1 2 := ⟨by decide, by decide, by decide, by decide, by decide⟩

end Cert.KernelIdeal.Hand

end
-- ==== Proof.KIAccess.lean ====
import proofs.«431332_j55946243997874_3_alg».proof.Proof.Gen.KernelIdeal.Launch
import Idealize.ShloMosaic.Lib.Pipeline.FrameBody
import Idealize.ShloMosaic.Lib.Pipeline.Value
import Idealize.ShloMosaic.Lib.Tactic

namespace Cert

open Idealize.ShloMosaic

variable {Val : EltTy → Type} [∀ e, Nonempty (Val e)] {sig : RefSig} {κ : Kind} {sp : Space} {S : Shape} {e : EltTy}
  (v : View sig κ sp S e) {off : Fin S.rank → Nat}

theorem zeros2 : (![0, 0] : Fin 2 → Nat) = fun _ => 0 := funext fun a => by fin_cases a <;> rfl

-- A load through the rectangle of the buffer's own size at zero offsets reads the contents.
theorem readAt_whole (f : v.ty.Contents Val) (h : off = fun _ => 0) (inb : ∀ a, off a + S.size a ≤ S.size a) :
    v.readAt Val (Rect.unit off S.size inb).toLoadRect f = v.read Val f :=
  (View.readAt_eq_ld v f _).trans (View.ld_unit_zero h inb _)

-- A store through it, made last, leaves its payload whatever was stored before.
theorem read_writes_whole (f : v.ty.Contents Val) (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

-- A load through it after such a store reads the payload.
theorem readCov_whole (h : off = fun _ => 0) (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ fun y => ⟨_, List.mem_cons_self, View.mem_set_unit_zero h inb y⟩,
    View.canon_cons_unit_zero h inb, View.ld_unit_zero h inb]

end Cert

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {gr W N : ℕ} (win : Fin W → Pipeline.WinSpec sig gr) (b : Ref sig .tc) (c : Dev nD)

-- A call's invariant with its scratch `b` split off and owned as `P`.
abbrev invS (P : sProp 𝕄) : sProp 𝕄 :=
  iprop(iprop(P ∗ Pipeline.scopedRestBut (Ix := Unit) (Name := ℕ) (U := UR sig nD τ) (Lvl := ℕ) (Val := Elt F) win c [b]) ∗ (∃ r, prngReg c r))

abbrev ScratchSplit : Prop :=
  (Pipeline.scopedRest (Ix := Unit) (Name := ℕ) (U := UR sig nD τ) (Lvl := ℕ) (Val := Elt F) win c : sProp 𝕄)
    = iprop(iprop(∃ f : Buf (Elt F) (c.tc.loc b), c.tc.loc b ↦{fullShare} f) ∗ Pipeline.scopedRestBut (Ix := Unit) (Name := ℕ) (U := UR sig nD τ) (Lvl := ℕ) (Val := Elt F) win c [b])

-- Between the points of a call whose scratch carries an accumulator: before the first the call's own invariant, afterwards the scratch at what the point before left.
def PhiS (acc : (n : ℕ) → n < N → b.ty.Contents (Elt F)) : (n : ℕ) → n ≤ N → sProp 𝕄
  | 0, _ => Pipeline.ΦA win c
  | n + 1, hn => invS win b c (owns c.tc (Memref.whole b) fullShare (acc n hn))

theorem PhiS_pos (acc : (n : ℕ) → n < N → b.ty.Contents (Elt F)) (n : ℕ) (h : n ≤ N) (hz : n ≠ 0) :
    PhiS win b c acc n h = invS win b c (owns c.tc (Memref.whole b) fullShare (acc (n - 1) (by omega))) := by
  cases n with
  | zero => exact absurd rfl hz
  | succ n => rfl

theorem PhiA_eq (hs : ScratchSplit (F := F) win b c) :
    (Pipeline.ΦA win c : sProp 𝕄) = invS win b c iprop(∃ d, owns c.tc (Memref.whole b) fullShare d) := by
  unfold Pipeline.ΦA; rw [show _ = _ from hs]; simp only [owns_whole]; try rfl

-- Whatever the scratch holds between points, it is owned at some contents: the call's own invariant follows.
theorem PhiS_some (hs : ScratchSplit (F := F) win b c)
    (acc : (n : ℕ) → n < N → b.ty.Contents (Elt F)) (n : ℕ) (h : n ≤ N) :
    PhiS win b c acc n h ⊢ invS win b c iprop(∃ d, owns c.tc (Memref.whole b) fullShare d) := by
  cases n with
  | zero => rw [← PhiA_eq win b c hs]; exact .rfl
  | succ n =>
    unfold PhiS
    iintro ⟨⟨HS, HR⟩, ⟨%r, Hg⟩⟩
    sl_close

theorem PhiS_out (hs : ScratchSplit (F := F) win b c)
    (acc : (n : ℕ) → n < N → b.ty.Contents (Elt F)) (n : ℕ) (h : n ≤ N) : PhiS win b c acc n h ⊢ Pipeline.ΦA win c := by
  rw [PhiA_eq win b c hs]; exact PhiS_some win b c hs acc n h

end Cert.KernelIdeal.Hand

end
-- ==== Proof.KIReg0.lean ====
import proofs.«431332_j55946243997874_3_alg».proof.Proof.Gen.KernelIdeal.Launch
import proofs.«431332_j55946243997874_3_alg».proof.Proof.Gen.KernelIdeal.Skeleton
import proofs.«431332_j55946243997874_3_alg».proof.Proof.Gen.KernelIdeal.Points
import proofs.«431332_j55946243997874_3_alg».proof.Proof.KIAccess
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

theorem hcond0_0 : ∀ t : Fin cfg0.N, cond0_0 (grid0.coords t) ↔ t.val % 12 = 0 := by decide +kernel
theorem hcond0_1 : ∀ t : Fin cfg0.N, cond0_1 (grid0.coords t) ↔ t.val % 12 = 11 := by decide +kernel

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev scM0 : Memref sig .tc .vmem S2048x1 .f32 := Memref.whole cc0_scratch0

section
variable (c : Dev nD) (E : Set ℕ) (i : grid0.Coords) (arg2 : Memref sig .tc .vmem S2048x1024 .f32) (harg2 : arg2.IsWhole) (arg3 : Memref sig .tc .vmem S2048x1024 .bf16) (harg3 : arg3.IsWhole) (arg4 : Memref sig .tc .vmem S2048x1 .f32) (harg4 : arg4.IsWhole) (arg5 : Memref sig .tc .vmem S2048x1 .f32) (harg5 : arg5.IsWhole)
    (x0 : Vec F S2048x1024 .f32) (K : PUnit → sProp (MT nD τ sig Unit (Elt F) ℕ (UR sig nD τ) ℕ))

-- The first reduction step: the accumulator is zero-filled, then gains the block's row sums; the cast block is stored.
theorem kernelRun0_A (hc0 : cond0_0 i) (hc1 : ¬cond0_1 i) :
    iprop((iprop(owns c.tc arg3 fullShare (k0_pay3 x0) ∗ owns c.tc arg5 fullShare (k0_pay2 x0 k0_pay1) ∗ owns c.tc arg2 fullShare x0) -∗ K ⟨⟩) ∗ owns c.tc arg2 fullShare x0 ∗ (∃ d, owns c.tc arg3 fullShare d) ∗ (∃ d, owns c.tc arg5 fullShare d))
      ⊢ wp frame (wpE (defs₀ (F := F)) Variants.none c none) E (cc0__degree_cast_kernel i arg2 harg2 arg3 harg3 arg4 harg4 arg5 harg5) K := by
  simp only [cc0__degree_cast_kernel_eq_skeleton]; unfold cc0__degree_cast_kernel_skel owns
  iintro ⟨Hk, ⟨%f0, %hf0, H0⟩, ⟨%d1, %f1, -, H1⟩, ⟨%ds, %fs, -, HS⟩⟩
  subst hf0
  sl_exec (disch := first | exact hc0 | exact hc1)
  sl_step
  iapply Hk
  isplitl [H1]
  · iexists _; isplitr
    swap; · iexact H1
    ipureintro; sl_unfold_run_names
    rw [read_writes_whole arg3.view _ zeros2, readAt_whole arg2.view f0 zeros2]
  isplitl [HS]
  · iexists _; isplitr
    swap; · iexact HS
    ipureintro; sl_unfold_run_names
    rw [read_writes_whole arg5.view _ zeros2, readAt_whole arg2.view f0 zeros2, readCov_whole arg5.view zeros2]
  sl_close

-- A middle step: the accumulator gains the block's row sums; the cast block is stored.
theorem kernelRun0_B (hc0 : ¬cond0_0 i) (hc1 : ¬cond0_1 i) (xs : Vec F S2048x1 .f32) :
    iprop((iprop(owns c.tc arg3 fullShare (k0_pay3 x0) ∗ owns c.tc arg5 fullShare (k0_pay2 x0 xs) ∗ owns c.tc arg2 fullShare x0) -∗ K ⟨⟩) ∗ owns c.tc arg2 fullShare x0 ∗ (∃ d, owns c.tc arg3 fullShare d) ∗ owns c.tc arg5 fullShare xs)
      ⊢ wp frame (wpE (defs₀ (F := F)) Variants.none c none) E (cc0__degree_cast_kernel i arg2 harg2 arg3 harg3 arg4 harg4 arg5 harg5) K := by
  simp only [cc0__degree_cast_kernel_eq_skeleton]; unfold cc0__degree_cast_kernel_skel owns
  iintro ⟨Hk, ⟨%f0, %hf0, H0⟩, ⟨%d1, %f1, -, H1⟩, ⟨%fs, %hfs, HS⟩⟩
  subst hf0 hfs
  sl_exec (disch := first | exact hc0 | exact hc1)
  sl_step
  iapply Hk
  isplitl [H1]
  · iexists _; isplitr
    swap; · iexact H1
    ipureintro; sl_unfold_run_names
    rw [read_writes_whole arg3.view _ zeros2, readAt_whole arg2.view f0 zeros2]
  isplitl [HS]
  · iexists _; isplitr
    swap; · iexact HS
    ipureintro; sl_unfold_run_names
    rw [read_writes_whole arg5.view _ zeros2, readAt_whole arg2.view f0 zeros2, readAt_whole arg5.view fs zeros2]
  sl_close

-- The last step: besides, the second output receives the finalised accumulator.
theorem kernelRun0_C (hc0 : ¬cond0_0 i) (hc1 : cond0_1 i) (xs : Vec F S2048x1 .f32) :
    iprop((iprop(owns c.tc arg3 fullShare (k0_pay3 x0) ∗ owns c.tc arg4 fullShare (k0_pay4 (k0_pay2 x0 xs)) ∗ owns c.tc arg5 fullShare (k0_pay2 x0 xs) ∗ owns c.tc arg2 fullShare x0) -∗ K ⟨⟩) ∗ owns c.tc arg2 fullShare x0 ∗ (∃ d, owns c.tc arg3 fullShare d) ∗ (∃ d, owns c.tc arg4 fullShare d) ∗ owns c.tc arg5 fullShare xs)
      ⊢ wp frame (wpE (defs₀ (F := F)) Variants.none c none) E (cc0__degree_cast_kernel i arg2 harg2 arg3 harg3 arg4 harg4 arg5 harg5) K := by
  simp only [cc0__degree_cast_kernel_eq_skeleton]; unfold cc0__degree_cast_kernel_skel owns
  iintro ⟨Hk, ⟨%f0, %hf0, H0⟩, ⟨%d1, %f1, -, H1⟩, ⟨%d2, %f2, -, H2⟩, ⟨%fs, %hfs, HS⟩⟩
  subst hf0 hfs
  sl_exec (disch := first | exact hc0 | exact hc1)
  sl_step
  iapply Hk
  isplitl [H1]
  · iexists _; isplitr
    swap; · iexact H1
    ipureintro; sl_unfold_run_names
    rw [read_writes_whole arg3.view _ zeros2, readAt_whole arg2.view f0 zeros2]
  isplitl [H2]
  · iexists _; isplitr
    swap; · iexact H2
    ipureintro; sl_unfold_run_names
    rw [read_writes_whole arg4.view _ zeros2, readCov_whole arg5.view zeros2, readAt_whole arg2.view f0 zeros2, readAt_whole arg5.view fs zeros2]
  isplitl [HS]
  · iexists _; isplitr
    swap; · iexact HS
    ipureintro; sl_unfold_run_names
    rw [read_writes_whole arg5.view _ zeros2, readAt_whole arg2.view f0 zeros2, readAt_whole arg5.view fs zeros2]
  sl_close

end

def acc0 (c : Dev nD) : (n : ℕ) → n < cfg0.N → Vec F S2048x1 .f32
  | 0, hn => k0_pay2 (iblk0 V c 0 ⟨0, hn⟩) k0_pay1
  | n + 1, hn =>
    if (n + 1) % 12 = 0 then k0_pay2 (iblk0 V c 0 ⟨n + 1, hn⟩) k0_pay1
    else k0_pay2 (iblk0 V c 0 ⟨n + 1, hn⟩) (acc0 c n (Nat.lt_of_succ_lt hn))

theorem acc0_reset (c : Dev nD) (t : Fin cfg0.N) (h0 : t.val % 12 = 0) :
    acc0 V c t.val t.isLt = k0_pay2 (iblk0 V c 0 t) k0_pay1 := by
  obtain ⟨n, hn⟩ := t
  cases n with
  | zero => exact rfl
  | succ n => exact (if_pos h0).trans rfl

theorem acc0_step (c : Dev nD) (t : Fin cfg0.N) (h0 : ¬t.val % 12 = 0) :
    acc0 V c t.val t.isLt = k0_pay2 (iblk0 V c 0 t) (acc0 V c (t.val - 1) (Nat.lt_of_le_of_lt (Nat.sub_le _ _) t.isLt)) := by
  obtain ⟨n, hn⟩ := t
  cases n with
  | zero => exact absurd (Nat.zero_mod _) h0
  | succ n => exact (if_neg h0).trans rfl

abbrev PhiS0 (c : Dev nD) : (n : ℕ) → n ≤ cfg0.N → sProp 𝕄 := PhiS spec0 cc0_scratch0 c (acc0 V c)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (iblk0 V c 0 t)
    | ⟨2, _⟩ => k0_pay4 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS spec0 cc0_scratch0 c (acc0 V c) t.val (Nat.le_of_lt t.isLt) := by
  dsimp only [dat0]; simp only [Fin.coe_castSucc]

theorem after0_1 (c : Dev nD) (t : Fin cfg0.N) : (dat0 V c).after 1 t = k0_pay3 (iblk0 V c 0 t) := by dsimp only [dat0]
theorem after0_2 (c : Dev nD) (t : Fin cfg0.N) : (dat0 V c).after 2 t = k0_pay4 (acc0 V c t.val t.isLt) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

theorem sound_body0 (c : Dev nD) (t : Fin cfg0.N) :
    iprop((dat0 V c).Φ t.castSucc ∗ (dat0 V c).owesAt () t.castSucc
      ∗ (∃ d, owns c.tc (st0_0 t) fullShare ((dat0 V c).before 0 t d))
      ∗ (∃ d, owns c.tc (st0_1 t) fullShare ((dat0 V c).before 1 t d))
      ∗ (∃ d, owns c.tc (st0_2 t) fullShare ((dat0 V c).before 2 t d)))
    ⊢ wp frame (wpE (defs₀ (F := F)) Variants.none c none) Set.univ (bodyAt0 t) (fun _ =>
      iprop(invS spec0 cc0_scratch0 c (owns c.tc scM0 fullShare (acc0 V c t.val t.isLt)) ∗ (dat0 V c).owesAt () t.castSucc
        ∗ (dat0 V c).leavesExact 0 t ∗ (dat0 V c).leavesExact 1 t ∗ (dat0 V c).leavesExact 2 t)) := by
  unfold bodyAt0
  simp only [before0_0]
  rw [PhiS0_castSucc,
    show (dat0 V c).leavesExact 0 t = owns c.tc (st0_0 t) fullShare (iblk0 V c 0 t) from by
      unfold Dat.leavesExact; rw [liveAt0_0 t]; rfl,
    show (dat0 V c).leavesExact 1 t = owns c.tc (st0_1 t) fullShare (k0_pay3 (iblk0 V c 0 t)) from by
      unfold Dat.leavesExact; rw [liveAt0_1 t]; rfl]
  by_cases h0 : t.val % 12 = 0
  · have hc1 : ¬cond0_1 (grid0.coords t) := fun h => by have := (hcond0_1 t).mp h; omega
    rw [Dat.leavesExact_idle (dat0 V c) 2 t (idleAt0_2 t hc1) (noFlush0_2 t hc1), acc0_reset V c t h0]
    iintro ⟨HΦ, Ho, ⟨%d0, H0⟩, ⟨%d1, H1⟩, ⟨%d2, H2⟩⟩
    ihave ⟨⟨⟨%ds, HS⟩, HR⟩, ⟨%r, Hg⟩⟩ := (PhiS_some spec0 cc0_scratch0 c (scopedRest0_split c) (acc0 V c) _ _) $$ HΦ
    iapply (kernelRun0_A c Set.univ (grid0.coords t) _ _ _ _ _ _ _ _ (iblk0 V c 0 t) _ ((hcond0_0 t).mpr h0) hc1)
    isplitr [H0 H1 HS]; swap; · sl_close
    iintro ⟨H1, HS, H0⟩
    iframe Ho
    sl_close
  · have hc0 : ¬cond0_0 (grid0.coords t) := fun h => h0 ((hcond0_0 t).mp h)
    rw [acc0_step V c t h0, PhiS_pos spec0 cc0_scratch0 c (acc0 V c) _ _ fun e => h0 (by rw [e])]
    by_cases h1 : t.val % 12 = 11
    · have hc1 := (hcond0_1 t).mpr h1
      rw [show (dat0 V c).leavesExact 2 t = owns c.tc (st0_2 t) fullShare ((dat0 V c).after 2 t) from by
        unfold Dat.leavesExact; rw [liveAt0_2 t hc1], after0_2, acc0_step V c t h0]
      iintro ⟨⟨⟨HS, HR⟩, ⟨%r, Hg⟩⟩, Ho, ⟨%d0, H0⟩, ⟨%d1, H1⟩, ⟨%d2, H2⟩⟩
      iapply (kernelRun0_C c Set.univ (grid0.coords t) _ _ _ _ _ _ _ _ (iblk0 V c 0 t) _ hc0 hc1 _)
      isplitr [H0 H1 H2 HS]; swap; · sl_close
      iintro ⟨H1, H2, HS, H0⟩
      iframe Ho
      sl_close
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS, HR⟩, ⟨%r, Hg⟩⟩, Ho, ⟨%d0, H0⟩, ⟨%d1, H1⟩, ⟨%d2, H2⟩⟩
      iapply (kernelRun0_B c Set.univ (grid0.coords t) _ _ _ _ _ _ _ _ (iblk0 V c 0 t) _ hc0 hc1 _)
      isplitr [H0 H1 HS]; swap; · sl_close
      iintro ⟨H1, HS, H0⟩
      iframe Ho
      sl_close

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c :=
  PhiS_out spec0 cc0_scratch0 c (scopedRest0_split c) (acc0 V c) (Fin.last cfg0.N).val (Nat.le_of_lt_succ (Fin.last cfg0.N).isLt)

end Cert.KernelIdeal.Hand

end
-- ==== Proof.KIReg1.lean ====
import proofs.«431332_j55946243997874_3_alg».proof.Proof.Gen.KernelIdeal.Launch
import proofs.«431332_j55946243997874_3_alg».proof.Proof.Gen.KernelIdeal.Skeleton
import proofs.«431332_j55946243997874_3_alg».proof.Proof.Gen.KernelIdeal.Points
import proofs.«431332_j55946243997874_3_alg».proof.Proof.KIAccess
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2048x512 := Rect.unit (s := S2048x512) ![0, 0] S2048x512.size inb_S2048x512_S2048x512_0_0
abbrev r1_1 : Rect S512x16 := Rect.unit (s := S512x16) ![0, 0] S512x16.size inb_S512x16_S512x16_0_0
abbrev r1_2 : Rect S2048x1 := Rect.unit (s := S2048x1) ![0, 0] S2048x1.size inb_S2048x1_S2048x1_0_0
abbrev r1_3 : Rect S2048x16 := Rect.unit (s := S2048x16) ![0, 0] S2048x16.size inb_S2048x16_S2048x16_0_0

def out1_3 (x0 : Vec F S2048x512 .f32) (x1 : Vec F S512x16 .f32) (x2 : Vec F S2048x1 .f32) : Vec F S2048x16 .bf16 :=
  View.canon [⟨r1_3, k1_pay1 (View.ld x0 r1_0) (View.ld x1 r1_1) (View.ld x2 r1_2)⟩]

-- The body's one store is of the whole output buffer, so it covers it.
theorem sound_kernel1 (c : Dev nD) (E : Set ℕ) (i : grid1.Coords)
    (arg1 : Memref sig .tc .vmem S2048x512 .f32) (harg1 : arg1.IsWhole) (arg2 : Memref sig .tc .vmem S512x16 .f32) (harg2 : arg2.IsWhole)
    (arg3 : Memref sig .tc .vmem S2048x1 .f32) (harg3 : arg3.IsWhole) (arg4 : Memref sig .tc .vmem S2048x16 .bf16) (harg4 : arg4.IsWhole)
    (x0 : Vec F S2048x512 .f32) (x1 : Vec F S512x16 .f32) (x2 : Vec F S2048x1 .f32) (K : PUnit → sProp 𝕄) :
    iprop((iprop(owns c.tc arg4 fullShare (out1_3 x0 x1 x2) ∗ owns c.tc arg1 fullShare x0 ∗ owns c.tc arg2 fullShare x1 ∗ owns c.tc arg3 fullShare x2) -∗ K ⟨⟩) ∗ owns c.tc arg1 fullShare x0 ∗ owns c.tc arg2 fullShare x1 ∗ owns c.tc arg3 fullShare x2 ∗ (∃ d, owns c.tc arg4 fullShare d))
      ⊢ wp frame (wpE (defs₀ (F := F)) Variants.none c none) E (cc1__dense_matmul_scaled_kernel i arg1 harg1 arg2 harg2 arg3 harg3 arg4 harg4) K := by
  simp only [cc1__dense_matmul_scaled_kernel_eq_skeleton]; unfold cc1__dense_matmul_scaled_kernel_skel owns
  iintro ⟨Hk, ⟨%f0, %hf0, H0⟩, ⟨%f1, %hf1, H1⟩, ⟨%f2, %hf2, H2⟩, ⟨%d3, %f3, -, H3⟩⟩
  subst hf0 hf1 hf2
  sl_exec
  sl_step
  iapply Hk
  isplitl [H3]
  · iexists _; isplitr
    swap; · iexact H3
    ipureintro
    exact View.read_writes_eq_canon _ _ _ (View.cover_of_tiled [⟨r1_3, _⟩] S2048x16.size (by rfl))
  sl_close

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem sound_body1 (c : Dev nD) (t : Fin cfg1.N) :
    iprop((dat1 V c).Φ t.castSucc ∗ (dat1 V c).owesAt () t.castSucc
      ∗ (∃ d, owns c.tc (st1_0 t) fullShare ((dat1 V c).before 0 t d))
      ∗ (∃ d, owns c.tc (st1_1 t) fullShare ((dat1 V c).before 1 t d))
      ∗ (∃ d, owns c.tc (st1_2 t) fullShare ((dat1 V c).before 2 t d))
      ∗ (∃ d, owns c.tc (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns c.tc (st1_0 t) fullShare ((dat1 V c).after 0 t)
        ∗ owns c.tc (st1_1 t) fullShare ((dat1 V c).after 1 t)
        ∗ owns c.tc (st1_2 t) fullShare ((dat1 V c).after 2 t)
        ∗ owns c.tc (st1_3 t) fullShare ((dat1 V c).after 3 t))) := by
  unfold bodyAt1
  simp only [before1_0, before1_1, before1_2]
  rw [show (dat1 V c).Φ t.succ = (dat1 V c).Φ t.castSucc from rfl,
    show (dat1 V c).owesAt () t.succ = (dat1 V c).owesAt () t.castSucc from rfl, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitr [H0 H1 H2 H3]; swap; · sl_close
  iintro ⟨H3, H0, H1, H2⟩
  iframe HΦ Ho
  sl_close

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Hand

end
-- ==== Proof.KIReg2.lean ====
import proofs.«431332_j55946243997874_3_alg».proof.Proof.Gen.KernelIdeal.Launch
import proofs.«431332_j55946243997874_3_alg».proof.Proof.Gen.KernelIdeal.Skeleton
import proofs.«431332_j55946243997874_3_alg».proof.Proof.Gen.KernelIdeal.Points
import proofs.«431332_j55946243997874_3_alg».proof.Proof.KIAccess
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

theorem hcond2_0 : ∀ t : Fin cfg2.N, cond2_0 (grid2.coords t) ↔ t.val % 4 = 0 := by decide +kernel
theorem hcond2_1 : ∀ t : Fin cfg2.N, cond2_1 (grid2.coords t) ↔ t.val % 4 = 3 := by decide +kernel

theorem idleAt2_6 : ∀ t : Fin cfg2.N, ¬t.val % 4 = 3 → cfg2.idle 6 (grid2.coords t) = true := by decide +kernel
theorem noFlush2_6 : ∀ t : Fin cfg2.N, ¬t.val % 4 = 3 → (cfg2.win 6).flush t = false := by decide +kernel
theorem liveAt2_6 : ∀ t : Fin cfg2.N, t.val % 4 = 3 → cfg2.idle 6 (grid2.coords t) = false := by decide +kernel

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S2048x16 .f32 := Memref.whole cc2_scratch0

section
variable (c : Dev nD) (E : Set ℕ) (i : grid2.Coords) (arg2 : Memref sig .tc .vmem S2048x3072 .bf16) (harg2 : arg2.IsWhole) (arg3 : Memref sig .tc .vmem S3072x16 .bf16) (harg3 : arg3.IsWhole) (arg4 : Memref sig .tc .vmem S2048x16 .bf16) (harg4 : arg4.IsWhole) (arg5 : Memref sig .tc .vmem S2048x1 .f32) (harg5 : arg5.IsWhole) (arg6 : Memref sig .tc .vmem S1x16 .f32) (harg6 : arg6.IsWhole) (arg7 : Memref sig .tc .vmem S16x40 .f32) (harg7 : arg7.IsWhole) (arg8 : Memref sig .tc .vmem S2048x40 .bf16) (harg8 : arg8.IsWhole) (arg9 : Memref sig .tc .vmem S2048x16 .f32) (harg9 : arg9.IsWhole)
    (x0 : Vec F S2048x3072 .bf16) (x1 : Vec F S3072x16 .bf16) (K : PUnit → sProp (MT nD τ sig Unit (Elt F) ℕ (UR sig nD τ) ℕ))

-- The first step of a row block: the scratch is reset, then gains the block product.
theorem run2_A (hc0 : cond2_0 i) (hc1 : ¬cond2_1 i) :
    iprop((iprop(owns c.tc arg9 fullShare (k2_pay2 (k2_pay1 (F := F)) x0 x1) ∗ owns c.tc arg2 fullShare x0 ∗ owns c.tc arg3 fullShare x1) -∗ K ⟨⟩) ∗ owns c.tc arg2 fullShare x0 ∗ owns c.tc arg3 fullShare x1 ∗ (∃ d, owns c.tc arg9 fullShare d))
      ⊢ wp frame (wpE (defs₀ (F := F)) Variants.none c none) E (cc2__agg1_fused_kernel i arg2 harg2 arg3 harg3 arg4 harg4 arg5 harg5 arg6 harg6 arg7 harg7 arg8 harg8 arg9 harg9) K := by
  simp only [cc2__agg1_fused_kernel_eq_skeleton]; unfold cc2__agg1_fused_kernel_skel owns
  iintro ⟨Hk, ⟨%f0, %hf0, H0⟩, ⟨%f1, %hf1, H1⟩, ⟨%ds, %fs, -, HS⟩⟩
  subst hf0 hf1
  sl_exec (disch := first | exact hc0 | exact hc1)
  sl_step
  iapply Hk
  isplitl [HS]
  · iexists _; isplitr
    swap; · iexact HS
    ipureintro; sl_unfold_run_names
    rw [read_writes_whole arg9.view _ zeros2, readCov_whole arg9.view zeros2, readAt_whole arg2.view f0 zeros2, readAt_whole arg3.view f1 zeros2]
  sl_close

-- A middle step: the scratch gains the block product.
theorem run2_B (hc0 : ¬cond2_0 i) (hc1 : ¬cond2_1 i) (xs : Vec F S2048x16 .f32) :
    iprop((iprop(owns c.tc arg9 fullShare (k2_pay2 xs x0 x1) ∗ owns c.tc arg2 fullShare x0 ∗ owns c.tc arg3 fullShare x1) -∗ K ⟨⟩) ∗ owns c.tc arg2 fullShare x0 ∗ owns c.tc arg3 fullShare x1 ∗ owns c.tc arg9 fullShare xs)
      ⊢ wp frame (wpE (defs₀ (F := F)) Variants.none c none) E (cc2__agg1_fused_kernel i arg2 harg2 arg3 harg3 arg4 harg4 arg5 harg5 arg6 harg6 arg7 harg7 arg8 harg8 arg9 harg9) K := by
  simp only [cc2__agg1_fused_kernel_eq_skeleton]; unfold cc2__agg1_fused_kernel_skel owns
  iintro ⟨Hk, ⟨%f0, %hf0, H0⟩, ⟨%f1, %hf1, H1⟩, ⟨%fs, %hfs, HS⟩⟩
  subst hf0 hf1 hfs
  sl_exec (disch := first | exact hc0 | exact hc1)
  sl_step
  iapply Hk
  isplitl [HS]
  · iexists _; isplitr
    swap; · iexact HS
    ipureintro; sl_unfold_run_names
    rw [read_writes_whole arg9.view _ zeros2, readAt_whole arg9.view fs zeros2, readAt_whole arg2.view f0 zeros2, readAt_whole arg3.view f1 zeros2]
  sl_close

-- The last step: the scratch gains the block product and the output block is computed from the sum.
theorem run2_C (hc0 : ¬cond2_0 i) (hc1 : cond2_1 i) (x2 : Vec F S2048x16 .bf16) (x3 : Vec F S2048x1 .f32) (x4 : Vec F S1x16 .f32) (x5 : Vec F S16x40 .f32) (xs : Vec F S2048x16 .f32) :
    iprop((iprop(owns c.tc arg8 fullShare (k2_pay3 x3 (k2_pay2 xs x0 x1) x2 x4 x5) ∗ owns c.tc arg9 fullShare (k2_pay2 xs x0 x1) ∗ owns c.tc arg2 fullShare x0 ∗ owns c.tc arg3 fullShare x1 ∗ owns c.tc arg4 fullShare x2 ∗ owns c.tc arg5 fullShare x3 ∗ owns c.tc arg6 fullShare x4 ∗ owns c.tc arg7 fullShare x5) -∗ K ⟨⟩) ∗ owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ owns c.tc arg9 fullShare xs)
      ⊢ wp frame (wpE (defs₀ (F := F)) Variants.none c none) E (cc2__agg1_fused_kernel i arg2 harg2 arg3 harg3 arg4 harg4 arg5 harg5 arg6 harg6 arg7 harg7 arg8 harg8 arg9 harg9) K := by
  simp only [cc2__agg1_fused_kernel_eq_skeleton]; unfold cc2__agg1_fused_kernel_skel owns
  iintro ⟨Hk, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩⟩
  subst hf0 hf1 hf2 hf3 hf4 hf5 hfs
  sl_exec (disch := first | exact hc0 | exact hc1)
  sl_step
  iapply Hk
  isplitl [H6]
  · iexists _; isplitr
    swap; · iexact H6
    ipureintro; sl_unfold_run_names
    rw [read_writes_whole arg8.view _ zeros2, readCov_whole arg9.view zeros2, readAt_whole arg5.view f3 zeros2, readAt_whole arg9.view fs zeros2, readAt_whole arg2.view f0 zeros2, readAt_whole arg3.view f1 zeros2, readAt_whole arg4.view f2 zeros2, readAt_whole arg6.view f4 zeros2, readAt_whole arg7.view f5 zeros2]
  isplitl [HS]
  · iexists _; isplitr
    swap; · iexact HS
    ipureintro; sl_unfold_run_names
    rw [read_writes_whole arg9.view _ zeros2, readAt_whole arg9.view fs zeros2, readAt_whole arg2.view f0 zeros2, readAt_whole arg3.view f1 zeros2]
  sl_close

end

def acc2 (c : Dev nD) : (n : ℕ) → n < cfg2.N → Vec F S2048x16 .f32
  | 0, hn => k2_pay2 (k2_pay1 (F := F)) (iblk2 V c 0 ⟨0, hn⟩) (iblk2 V c 1 ⟨0, hn⟩)
  | n + 1, hn => k2_pay2 (if (n + 1) % 4 = 0 then k2_pay1 (F := F) else acc2 c n (Nat.lt_of_succ_lt hn)) (iblk2 V c 0 ⟨n + 1, hn⟩) (iblk2 V c 1 ⟨n + 1, hn⟩)

theorem acc2_reset (c : Dev nD) (t : Fin cfg2.N) (h0 : t.val % 4 = 0) :
    acc2 V c t.val t.isLt = k2_pay2 (k2_pay1 (F := F)) (iblk2 V c 0 t) (iblk2 V c 1 t) := by
  obtain ⟨n, hn⟩ := t
  cases n with
  | zero => rfl
  | succ n => exact congrArg (fun z => k2_pay2 z (iblk2 V c 0 ⟨n + 1, hn⟩) (iblk2 V c 1 ⟨n + 1, hn⟩)) (if_pos h0)

theorem acc2_step (c : Dev nD) (t : Fin cfg2.N) (h0 : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact congrArg (fun z => k2_pay2 z (iblk2 V c 0 ⟨n + 1, hn⟩) (iblk2 V c 1 ⟨n + 1, hn⟩)) (if_neg h0)

abbrev PhiS2 (c : Dev nD) : (n : ℕ) → n ≤ cfg2.N → sProp 𝕄 := PhiS spec2 cc2_scratch0 c (acc2 V c)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay3 (iblk2 V c 3 t) (acc2 V c t.val t.isLt) (iblk2 V c 2 t) (iblk2 V c 4 t) (iblk2 V c 5 t)
  Φ t := PhiS2 V c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
    | ⟨6, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS spec2 cc2_scratch0 c (acc2 V c) t.val (Nat.le_of_lt t.isLt) := by
  dsimp only [dat2]; simp only [Fin.coe_castSucc]

theorem after2_6 (c : Dev nD) (t : Fin cfg2.N) : (dat2 V c).after 6 t = k2_pay3 (iblk2 V c 3 t) (acc2 V c t.val t.isLt) (iblk2 V c 2 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

theorem sound_body2 (c : Dev nD) (t : Fin cfg2.N) :
    iprop((dat2 V c).Φ t.castSucc ∗ (dat2 V c).owesAt () t.castSucc
      ∗ (∃ d, owns c.tc (st2_0 t) fullShare ((dat2 V c).before 0 t d))
      ∗ (∃ d, owns c.tc (st2_1 t) fullShare ((dat2 V c).before 1 t d))
      ∗ (∃ d, owns c.tc (st2_2 t) fullShare ((dat2 V c).before 2 t d))
      ∗ (∃ d, owns c.tc (st2_3 t) fullShare ((dat2 V c).before 3 t d))
      ∗ (∃ d, owns c.tc (st2_4 t) fullShare ((dat2 V c).before 4 t d))
      ∗ (∃ d, owns c.tc (st2_5 t) fullShare ((dat2 V c).before 5 t d))
      ∗ (∃ d, owns c.tc (st2_6 t) fullShare ((dat2 V c).before 6 t d)))
    ⊢ wp frame (wpE (defs₀ (F := F)) Variants.none c none) Set.univ (bodyAt2 t) (fun _ =>
      iprop(invS spec2 cc2_scratch0 c (owns c.tc scM2 fullShare (acc2 V c t.val t.isLt)) ∗ (dat2 V c).owesAt () t.castSucc
        ∗ owns c.tc (st2_0 t) fullShare (iblk2 V c 0 t)
        ∗ owns c.tc (st2_1 t) fullShare (iblk2 V c 1 t)
        ∗ owns c.tc (st2_2 t) fullShare (iblk2 V c 2 t)
        ∗ owns c.tc (st2_3 t) fullShare (iblk2 V c 3 t)
        ∗ owns c.tc (st2_4 t) fullShare (iblk2 V c 4 t)
        ∗ owns c.tc (st2_5 t) fullShare (iblk2 V c 5 t)
        ∗ (dat2 V c).leavesExact 6 t)) := by
  unfold bodyAt2
  simp only [before2_0, before2_1, before2_2, before2_3, before2_4, before2_5]
  rw [PhiS2_castSucc]
  by_cases h0 : t.val % 4 = 0
  · have h1 : ¬t.val % 4 = 3 := by omega
    rw [Dat.leavesExact_idle (dat2 V c) 6 t (idleAt2_6 t h1) (noFlush2_6 t h1), acc2_reset V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave ⟨⟨⟨%ds, HS⟩, HR⟩, ⟨%r, Hg⟩⟩ := (PhiS_some spec2 cc2_scratch0 c (scopedRest2_split c) (acc2 V c) _ _) $$ HΦ
    iapply (run2_A c Set.univ (grid2.coords t) _ _ _ _ _ _ _ _ _ _ _ _ _ _ _ _ (iblk2 V c 0 t) (iblk2 V c 1 t) _ ((hcond2_0 t).mpr h0) (fun h => h1 ((hcond2_1 t).mp h)))
    isplitr [H0 H1 HS]; swap; · sl_close
    iintro ⟨HS, H0, H1⟩
    iframe Ho
    sl_close
  · rw [acc2_step V c t h0, PhiS_pos spec2 cc2_scratch0 c (acc2 V c) _ _ fun e => h0 (by rw [e])]
    by_cases h1 : t.val % 4 = 3
    · rw [show (dat2 V c).leavesExact 6 t = owns c.tc (st2_6 t) fullShare ((dat2 V c).after 6 t) from by
        unfold Dat.leavesExact; rw [liveAt2_6 t h1], after2_6, acc2_step V c t h0]
      iintro ⟨⟨⟨HS, HR⟩, ⟨%r, Hg⟩⟩, Ho, ⟨%d0, H0⟩, ⟨%d1, H1⟩, ⟨%d2, H2⟩, ⟨%d3, H3⟩, ⟨%d4, H4⟩, ⟨%d5, H5⟩, ⟨%d6, H6⟩⟩
      iapply (run2_C c Set.univ (grid2.coords t) _ _ _ _ _ _ _ _ _ _ _ _ _ _ _ _ (iblk2 V c 0 t) (iblk2 V c 1 t) _ (fun h => h0 ((hcond2_0 t).mp h)) ((hcond2_1 t).mpr h1) (iblk2 V c 2 t) (iblk2 V c 3 t) (iblk2 V c 4 t) (iblk2 V c 5 t) _)
      isplitr [H0 H1 H2 H3 H4 H5 H6 HS]; swap; · sl_close
      iintro ⟨H6, HS, H0, H1, H2, H3, H4, H5⟩
      iframe Ho
      sl_close
    · rw [Dat.leavesExact_idle (dat2 V c) 6 t (idleAt2_6 t h1) (noFlush2_6 t h1)]
      iintro ⟨⟨⟨HS, HR⟩, ⟨%r, Hg⟩⟩, Ho, ⟨%d0, H0⟩, ⟨%d1, H1⟩, ⟨%d2, H2⟩, ⟨%d3, H3⟩, ⟨%d4, H4⟩, ⟨%d5, H5⟩, ⟨%d6, H6⟩⟩
      iapply (run2_B c Set.univ (grid2.coords t) _ _ _ _ _ _ _ _ _ _ _ _ _ _ _ _ (iblk2 V c 0 t) (iblk2 V c 1 t) _ (fun h => h0 ((hcond2_0 t).mp h)) (fun h => h1 ((hcond2_1 t).mp h)) _)
      isplitr [H0 H1 HS]; swap; · sl_close
      iintro ⟨HS, H0, H1⟩
      iframe Ho
      sl_close

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c :=
  PhiS_out spec2 cc2_scratch0 c (scopedRest2_split c) (acc2 V c) (Fin.last cfg2.N).val (Nat.le_of_lt_succ (Fin.last cfg2.N).isLt)

end Cert.KernelIdeal.Hand

end
-- ==== Proof.KIReg3.lean ====
import proofs.«431332_j55946243997874_3_alg».proof.Proof.Gen.KernelIdeal.Launch
import proofs.«431332_j55946243997874_3_alg».proof.Proof.Gen.KernelIdeal.Skeleton
import proofs.«431332_j55946243997874_3_alg».proof.Proof.Gen.KernelIdeal.Points
import proofs.«431332_j55946243997874_3_alg».proof.Proof.KIAccess
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev xb3_0 (c : Dev nD) (t : Fin cfg3.N) : Vec F S2048x3072 .bf16 := iblk3 V c 0 t
abbrev xb3_1 (c : Dev nD) (t : Fin cfg3.N) : Vec F S3072x40 .bf16 := iblk3 V c 1 t
abbrev xb3_2 (c : Dev nD) (t : Fin cfg3.N) : Vec F S2048x40 .bf16 := iblk3 V c 2 t
abbrev xb3_3 (c : Dev nD) (t : Fin cfg3.N) : Vec F S2048x1 .f32 := iblk3 V c 3 t
abbrev xb3_4 (c : Dev nD) (t : Fin cfg3.N) : Vec F S1x40 .f32 := iblk3 V c 4 t

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

theorem hcond3_0 : ∀ t : Fin cfg3.N, cond3_0 (grid3.coords t) ↔ t.val % 4 = 0 := by decide +kernel
theorem hcond3_1 : ∀ t : Fin cfg3.N, cond3_1 (grid3.coords t) ↔ t.val % 4 = 3 := by decide +kernel

theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

abbrev scM3 : Memref sig .tc .vmem S2048x40 .f32 := Memref.whole cc3_scratch0

section
variable (c : Dev nD) (E : Set ℕ) (i : grid3.Coords) (arg2 : Memref sig .tc .vmem S2048x3072 .bf16) (harg2 : arg2.IsWhole) (arg3 : Memref sig .tc .vmem S3072x40 .bf16) (harg3 : arg3.IsWhole) (arg4 : Memref sig .tc .vmem S2048x40 .bf16) (harg4 : arg4.IsWhole) (arg5 : Memref sig .tc .vmem S2048x1 .f32) (harg5 : arg5.IsWhole) (arg6 : Memref sig .tc .vmem S1x40 .f32) (harg6 : arg6.IsWhole) (arg7 : Memref sig .tc .vmem S2048x40 .f32) (harg7 : arg7.IsWhole) (arg8 : Memref sig .tc .vmem S2048x40 .f32) (harg8 : arg8.IsWhole)
    (x0 : Vec F S2048x3072 .bf16) (x1 : Vec F S3072x40 .bf16) (K : PUnit → sProp (MT nD τ sig Unit (Elt F) ℕ (UR sig nD τ) ℕ))

-- The first step of a row block: the accumulator is reset, then gains the block product.
theorem run3_A (hc0 : cond3_0 i) (hc1 : ¬cond3_1 i) :
    iprop((iprop(owns c.tc arg8 fullShare (k3_pay2 (k3_pay1 (F := F)) x0 x1) ∗ owns c.tc arg2 fullShare x0 ∗ owns c.tc arg3 fullShare x1) -∗ K ⟨⟩) ∗ owns c.tc arg2 fullShare x0 ∗ owns c.tc arg3 fullShare x1 ∗ (∃ d, owns c.tc arg8 fullShare d))
      ⊢ wp frame (wpE (defs₀ (F := F)) Variants.none c none) E (cc3__agg_final_kernel i arg2 harg2 arg3 harg3 arg4 harg4 arg5 harg5 arg6 harg6 arg7 harg7 arg8 harg8) K := by
  simp only [cc3__agg_final_kernel_eq_skeleton]; unfold cc3__agg_final_kernel_skel owns
  iintro ⟨Hk, ⟨%f0, %hf0, H0⟩, ⟨%f1, %hf1, H1⟩, ⟨%ds, %fs, -, HS⟩⟩
  subst hf0 hf1
  sl_exec (disch := first | exact hc0 | exact hc1)
  sl_step
  iapply Hk
  isplitl [HS]
  · iexists _; isplitr
    swap; · iexact HS
    ipureintro; sl_unfold_run_names
    rw [read_writes_whole arg8.view _ zeros2, readCov_whole arg8.view zeros2, readAt_whole arg2.view f0 zeros2, readAt_whole arg3.view f1 zeros2]
  sl_close

-- A middle step: the accumulator gains the block product.
theorem run3_B (hc0 : ¬cond3_0 i) (hc1 : ¬cond3_1 i) (xs : Vec F S2048x40 .f32) :
    iprop((iprop(owns c.tc arg8 fullShare (k3_pay2 xs x0 x1) ∗ owns c.tc arg2 fullShare x0 ∗ owns c.tc arg3 fullShare x1) -∗ K ⟨⟩) ∗ owns c.tc arg2 fullShare x0 ∗ owns c.tc arg3 fullShare x1 ∗ owns c.tc arg8 fullShare xs)
      ⊢ wp frame (wpE (defs₀ (F := F)) Variants.none c none) E (cc3__agg_final_kernel i arg2 harg2 arg3 harg3 arg4 harg4 arg5 harg5 arg6 harg6 arg7 harg7 arg8 harg8) K := by
  simp only [cc3__agg_final_kernel_eq_skeleton]; unfold cc3__agg_final_kernel_skel owns
  iintro ⟨Hk, ⟨%f0, %hf0, H0⟩, ⟨%f1, %hf1, H1⟩, ⟨%fs, %hfs, HS⟩⟩
  subst hf0 hf1 hfs
  sl_exec (disch := first | exact hc0 | exact hc1)
  sl_step
  iapply Hk
  isplitl [HS]
  · iexists _; isplitr
    swap; · iexact HS
    ipureintro; sl_unfold_run_names
    rw [read_writes_whole arg8.view _ zeros2, readAt_whole arg8.view fs zeros2, readAt_whole arg2.view f0 zeros2, readAt_whole arg3.view f1 zeros2]
  sl_close

-- The last step: the accumulator gains the block product and the output block is computed from the sum.
theorem run3_C (hc0 : ¬cond3_0 i) (hc1 : cond3_1 i) (x2 : Vec F S2048x40 .bf16) (x3 : Vec F S2048x1 .f32) (x4 : Vec F S1x40 .f32) (xs : Vec F S2048x40 .f32) :
    iprop((iprop(owns c.tc arg7 fullShare (k3_pay3 x3 (k3_pay2 xs x0 x1) x2 x4) ∗ owns c.tc arg8 fullShare (k3_pay2 xs x0 x1) ∗ owns c.tc arg2 fullShare x0 ∗ owns c.tc arg3 fullShare x1 ∗ owns c.tc arg4 fullShare x2 ∗ owns c.tc arg5 fullShare x3 ∗ owns c.tc arg6 fullShare x4) -∗ K ⟨⟩) ∗ owns c.tc arg2 fullShare x0 ∗ owns c.tc arg3 fullShare x1 ∗ owns c.tc arg4 fullShare x2 ∗ owns c.tc arg5 fullShare x3 ∗ owns c.tc arg6 fullShare x4 ∗ (∃ d, owns c.tc arg7 fullShare d) ∗ owns c.tc arg8 fullShare xs)
      ⊢ wp frame (wpE (defs₀ (F := F)) Variants.none c none) E (cc3__agg_final_kernel i arg2 harg2 arg3 harg3 arg4 harg4 arg5 harg5 arg6 harg6 arg7 harg7 arg8 harg8) K := by
  simp only [cc3__agg_final_kernel_eq_skeleton]; unfold cc3__agg_final_kernel_skel owns
  iintro ⟨Hk, ⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩⟩
  subst hf0 hf1 hf2 hf3 hf4 hfs
  sl_exec (disch := first | exact hc0 | exact hc1)
  sl_step
  iapply Hk
  isplitl [H5]
  · iexists _; isplitr
    swap; · iexact H5
    ipureintro; sl_unfold_run_names
    rw [read_writes_whole arg7.view _ zeros2, readCov_whole arg8.view zeros2, readAt_whole arg5.view f3 zeros2, readAt_whole arg8.view fs zeros2, readAt_whole arg2.view f0 zeros2, readAt_whole arg3.view f1 zeros2, readAt_whole arg4.view f2 zeros2, readAt_whole arg6.view f4 zeros2]
  isplitl [HS]
  · iexists _; isplitr
    swap; · iexact HS
    ipureintro; sl_unfold_run_names
    rw [read_writes_whole arg8.view _ zeros2, readAt_whole arg8.view fs zeros2, readAt_whole arg2.view f0 zeros2, readAt_whole arg3.view f1 zeros2]
  sl_close

end

def acc3 (c : Dev nD) : (n : ℕ) → n < cfg3.N → Vec F S2048x40 .f32
  | 0, hn => k3_pay2 (k3_pay1 (F := F)) (xb3_0 V c ⟨0, hn⟩) (xb3_1 V c ⟨0, hn⟩)
  | n + 1, hn =>
    if (n + 1) % 4 = 0 then k3_pay2 (k3_pay1 (F := F)) (xb3_0 V c ⟨n + 1, hn⟩) (xb3_1 V c ⟨n + 1, hn⟩)
    else k3_pay2 (acc3 c n (Nat.lt_of_succ_lt hn)) (xb3_0 V c ⟨n + 1, hn⟩) (xb3_1 V c ⟨n + 1, hn⟩)

theorem acc3_reset (c : Dev nD) (t : Fin cfg3.N) (h0 : t.val % 4 = 0) :
    acc3 V c t.val t.isLt = k3_pay2 (k3_pay1 (F := F)) (xb3_0 V c t) (xb3_1 V c t) := by
  obtain ⟨n, hn⟩ := t
  cases n with
  | zero => rfl
  | succ n => exact if_pos h0

theorem acc3_step (c : Dev nD) (t : Fin cfg3.N) (h0 : ¬t.val % 4 = 0) :
    acc3 V c t.val t.isLt = k3_pay2 (acc3 V c (t.val - 1) (Nat.lt_of_le_of_lt (Nat.sub_le _ _) t.isLt)) (xb3_0 V c t) (xb3_1 V c t) := by
  obtain ⟨n, hn⟩ := t
  cases n with
  | zero => exact absurd (Nat.zero_mod _) h0
  | succ n => exact if_neg h0

def out3 (c : Dev nD) (t : Fin cfg3.N) : Vec F S2048x40 .f32 :=
  k3_pay3 (xb3_3 V c t) (acc3 V c t.val t.isLt) (xb3_2 V c t) (xb3_4 V c t)

abbrev PhiS3 (c : Dev nD) : (n : ℕ) → n ≤ cfg3.N → sProp 𝕄 := PhiS spec3 cc3_scratch0 c (acc3 V c)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 V c t
  Φ t := PhiS3 V c t.val (Nat.le_of_lt_succ t.isLt)
  q w := match w with
    | ⟨0, _⟩ => fullShare
    | ⟨1, _⟩ => (fullShare : PosShare TreeShare).left
    | ⟨2, _⟩ => (fullShare : PosShare TreeShare).right
    | ⟨3, _⟩ => fullShare
    | ⟨4, _⟩ => fullShare
    | ⟨5, _⟩ => fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS spec3 cc3_scratch0 c (acc3 V c) t.val (Nat.le_of_lt t.isLt) := by
  dsimp only [dat3]; simp only [Fin.coe_castSucc]

theorem after3_5 (c : Dev nD) (t : Fin cfg3.N) : (dat3 V c).after 5 t = out3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ (∃ d, owns c.tc (st3_0 t) fullShare ((dat3 V c).before 0 t d))
      ∗ (∃ d, owns c.tc (st3_1 t) fullShare ((dat3 V c).before 1 t d))
      ∗ (∃ d, owns c.tc (st3_2 t) fullShare ((dat3 V c).before 2 t d))
      ∗ (∃ d, owns c.tc (st3_3 t) fullShare ((dat3 V c).before 3 t d))
      ∗ (∃ d, owns c.tc (st3_4 t) fullShare ((dat3 V c).before 4 t d))
      ∗ (∃ d, owns c.tc (st3_5 t) fullShare ((dat3 V c).before 5 t d)))
    ⊢ wp frame (wpE (defs₀ (F := F)) Variants.none c none) Set.univ (bodyAt3 t) (fun _ =>
      iprop(invS spec3 cc3_scratch0 c (owns c.tc scM3 fullShare (acc3 V c t.val t.isLt)) ∗ (dat3 V c).owesAt () t.castSucc
        ∗ owns c.tc (st3_0 t) fullShare (iblk3 V c 0 t)
        ∗ owns c.tc (st3_1 t) fullShare (iblk3 V c 1 t)
        ∗ owns c.tc (st3_2 t) fullShare (iblk3 V c 2 t)
        ∗ owns c.tc (st3_3 t) fullShare (iblk3 V c 3 t)
        ∗ owns c.tc (st3_4 t) fullShare (iblk3 V c 4 t)
        ∗ (dat3 V c).leavesExact 5 t)) := by
  unfold bodyAt3
  simp only [before3_0, before3_1, before3_2, before3_3, before3_4]
  rw [PhiS3_castSucc]
  by_cases h0 : t.val % 4 = 0
  · have hc1 : ¬cond3_1 (grid3.coords t) := fun h => by have := (hcond3_1 t).mp h; omega
    rw [Dat.leavesExact_idle (dat3 V c) 5 t (idleAt3_5 t hc1) (noFlush3_5 t hc1), acc3_reset V c t h0]
    iintro ⟨HΦ, Ho, ⟨%d0, H0⟩, ⟨%d1, H1⟩, ⟨%d2, H2⟩, ⟨%d3, H3⟩, ⟨%d4, H4⟩, ⟨%d5, H5⟩⟩
    ihave ⟨⟨⟨%ds, HS⟩, HR⟩, ⟨%r, Hg⟩⟩ := (PhiS_some spec3 cc3_scratch0 c (scopedRest3_split c) (acc3 V c) _ _) $$ HΦ
    iapply (run3_A c Set.univ (grid3.coords t) _ _ _ _ _ _ _ _ _ _ _ _ _ _ (xb3_0 V c t) (xb3_1 V c t) _ ((hcond3_0 t).mpr h0) hc1)
    isplitr [H0 H1 HS]; swap; · sl_close
    iintro ⟨HS, H0, H1⟩
    iframe Ho
    sl_close
  · have hc0 : ¬cond3_0 (grid3.coords t) := fun h => h0 ((hcond3_0 t).mp h)
    rw [acc3_step V c t h0, PhiS_pos spec3 cc3_scratch0 c (acc3 V c) _ _ fun e => h0 (by rw [e])]
    by_cases h1 : t.val % 4 = 3
    · have hc1 := (hcond3_1 t).mpr h1
      rw [show (dat3 V c).leavesExact 5 t = owns c.tc (st3_5 t) fullShare ((dat3 V c).after 5 t) from by
        unfold Dat.leavesExact; rw [liveAt3_5 t hc1], after3_5]
      unfold out3
      rw [acc3_step V c t h0]
      iintro ⟨⟨⟨HS, HR⟩, ⟨%r, Hg⟩⟩, Ho, ⟨%d0, H0⟩, ⟨%d1, H1⟩, ⟨%d2, H2⟩, ⟨%d3, H3⟩, ⟨%d4, H4⟩, ⟨%d5, H5⟩⟩
      iapply (run3_C c Set.univ (grid3.coords t) _ _ _ _ _ _ _ _ _ _ _ _ _ _ (xb3_0 V c t) (xb3_1 V c t) _ hc0 hc1 (xb3_2 V c t) (xb3_3 V c t) (xb3_4 V c t) _)
      isplitr [H0 H1 H2 H3 H4 H5 HS]; swap; · sl_close
      iintro ⟨H5, HS, H0, H1, H2, H3, H4⟩
      iframe Ho
      sl_close
    · have hc1 : ¬cond3_1 (grid3.coords t) := fun h => h1 ((hcond3_1 t).mp h)
      rw [Dat.leavesExact_idle (dat3 V c) 5 t (idleAt3_5 t hc1) (noFlush3_5 t hc1)]
      iintro ⟨⟨⟨HS, HR⟩, ⟨%r, Hg⟩⟩, Ho, ⟨%d0, H0⟩, ⟨%d1, H1⟩, ⟨%d2, H2⟩, ⟨%d3, H3⟩, ⟨%d4, H4⟩, ⟨%d5, H5⟩⟩
      iapply (run3_B c Set.univ (grid3.coords t) _ _ _ _ _ _ _ _ _ _ _ _ _ _ (xb3_0 V c t) (xb3_1 V c t) _ hc0 hc1 _)
      isplitr [H0 H1 HS]; swap; · sl_close
      iintro ⟨HS, H0, H1⟩
      iframe Ho
      sl_close

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := .rfl

theorem hout3 (c : Dev nD) : (dat3 V c).Φ (Fin.last cfg3.N) ⊢ Pipeline.ΦA spec3 c :=
  PhiS_out spec3 cc3_scratch0 c (scopedRest3_split c) (acc3 V c) (Fin.last cfg3.N).val (Nat.le_of_lt_succ (Fin.last cfg3.N).isLt)

end Cert.KernelIdeal.Hand

end
-- ==== Proof.KIRun.lean ====
import proofs.«431332_j55946243997874_3_alg».proof.Proof.Gen.KernelIdeal.Launch
import proofs.«431332_j55946243997874_3_alg».proof.Proof.KIShared
import proofs.«431332_j55946243997874_3_alg».proof.Proof.KIReg0
import proofs.«431332_j55946243997874_3_alg».proof.Proof.KIReg1
import proofs.«431332_j55946243997874_3_alg».proof.Proof.KIReg2
import proofs.«431332_j55946243997874_3_alg».proof.Proof.KIReg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Entry (F : FTy → Type) [FloatOps F] : Type :=
  (c : Dev nD) → (b : Ref sig .tc) → Buf (Elt F) ((c : Thread nD τ).loc b)

section Run

variable (m : (ℓ : Loc nD τ sig) → Buf (Elt F) ℓ) (ρ : Dev nD → PrngReg)
abbrev W0 (c : Dev nD) : Valuation τ sig (Elt F) := fun b => m (c, b)
abbrev V0 : Entry F := fun c b => W0 m c b
def W1 (c : Dev nD) : Valuation τ sig (Elt F) :=
  Pipeline.withArrays spec0 c (W0 m c) fun w => (dat0 (V0 m) c).arrAt w cfg0.N
abbrev V1 : Entry F := fun c b => W1 m c b
def W2 (c : Dev nD) : Valuation τ sig (Elt F) :=
  Pipeline.withArrays spec1 c (W1 m c) fun w => (dat1 (V1 m) c).arrAt w cfg1.N
abbrev V2 : Entry F := fun c b => W2 m c b
abbrev W3 (c : Dev nD) : Valuation τ sig (Elt F) := StableHlo.after hostOps2 (W2 m c)
abbrev V3 : Entry F := fun c b => W3 m c b

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb

def W4 (c : Dev nD) : Valuation τ sig (Elt F) :=
  Function.update (W3 m c) (Proc.devRef .tc main_v3) ((dat2 (V3 m) c).arrAt 6 cfg2.N)
abbrev V4 : Entry F := fun c b => W4 m c b
abbrev W5 (c : Dev nD) : Valuation τ sig (Elt F) := StableHlo.after hostOps3 (W4 m c)
abbrev V5 : Entry F := fun c b => W5 m c b
def W6 (c : Dev nD) : Valuation τ sig (Elt F) :=
  Function.update (W5 m c) (Proc.devRef .tc main_v5) ((dat3 (V5 m) c).arrAt 5 cfg3.N)
abbrev V6 : Entry F := fun c b => W6 m c b

theorem W4_out (c : Dev nD) : W4 m c (Proc.devRef .tc main_v3) = (dat2 (V3 m) c).arrAt 6 cfg2.N := by
  unfold W4; exact Function.update_self ..
theorem W4_of_ne (c : Dev nD) (b : Ref sig .tc) (hb : b ≠ main_v3) :
    W4 m c (Proc.devRef .tc b) = W3 m c (Proc.devRef .tc b) := by
  unfold W4; exact Function.update_of_ne (StableHlo.devRef_ne_of_ne hb) ..
theorem W6_out (c : Dev nD) : W6 m c (Proc.devRef .tc main_v5) = (dat3 (V5 m) c).arrAt 5 cfg3.N := by
  unfold W6; exact Function.update_self ..
theorem W6_of_ne (c : Dev nD) (b : Ref sig .tc) (hb : b ≠ main_v5) :
    W6 m c (Proc.devRef .tc b) = W5 m c (Proc.devRef .tc b) := by
  unfold W6; exact Function.update_of_ne (StableHlo.devRef_ne_of_ne hb) ..

theorem W3_of_ne (c : Dev nD) (b : Ref sig .tc) (hb : b ≠ main_v2) :
    W3 m c (Proc.devRef .tc b) = W2 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))
theorem W5_of_ne (c : Dev nD) (b : Ref sig .tc) (hb : b ≠ main_v4) :
    W5 m c (Proc.devRef .tc b) = W4 m c (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
  | ⟨3, _⟩ => fun c => dat3 (V5 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
theorem q_eq2 (V : Entry F) (c : Dev nD) (w : Fin cfg2.W) (h1 : w ≠ 1) (h2 : w ≠ 2) : (dat2 V c).q w = fullShare := by
  fin_cases w <;> first | rfl | exact absurd rfl h1 | exact absurd rfl h2
theorem q_eq3 (V : Entry F) (c : Dev nD) (w : Fin cfg3.W) (h1 : w ≠ 1) (h2 : w ≠ 2) : (dat3 V c).q w = fullShare := by
  fin_cases w <;> first | rfl | exact absurd rfl h1 | exact absurd rfl h2

/-- A call as one segment of @main, taking the buffers from the contents `W` to the contents `W'`. -/
def regOf (pd : (p : Fin 4) → (c : Dev nD) → Dat τ (Elt F) Unit ℕ (UR sig nD τ) ℕ (Pipeline.pin (pcfgs (F := F)) adm p) c) (p : Fin 4)
    (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (W W' : Dev nD → Valuation τ sig (Elt F))
    (hbody : ∀ c, BodyObligation (pd p c) (defs₀ (F := F)) Variants.none () Set.univ)
    (howed : ∀ c t, (pd p c).owed t = 0) (hrec : ∀ c, (pd p c).recorded 0 = Set.univ)
    (hin : ∀ c, (Pipeline.ΦA (cfgs p).spec c : sProp 𝕄) ⊢ (pd p c).Φ 0)
    (hout : ∀ c, (pd p c).Φ (Fin.last (cfgs p).N) ⊢ (Pipeline.ΦA (cfgs p).spec c : sProp 𝕄))
    (hsplit : ∀ c, (unscopedBufs c (fun b => W c b) : sProp 𝕄)
      ⊢ iprop((pd p c).arrays ((pd p c).arrAt · 0) ∗ Pipeline.unscopedRest (cfgs p).spec c fun b => W c b))
    (hjoin : ∀ c, iprop((pd p c).arrays ((pd p c).arrAt · (cfgs p).N) ∗ Pipeline.unscopedRest (cfgs p).spec c fun b => W c b)
      ⊢ (unscopedBufs c (fun b => W' c b) : sProp 𝕄)) :
    Pipeline.RegionSeg (pcfgs (F := F)) adm pd () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W₀, HO⟩; iexists W₀; isplitr; · ipureintro; exact fun _ _ => Or.inl (by rw [hrec c]; trivial)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine (hout c).trans ?_
    rw [Pipeline.ownSems0_none]; unfold Pipeline.ΦA
    iintro ⟨Hr, Hp⟩
    isplitl [Hp]; · iexact Hp
    isplitr; · iempintro
    iexact Hr
  hexit c := by
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.Dat.owesAt Pipeline.owesWithin
    rw [howed c _]
    icases HO with ⟨%W₀, -, HO⟩; iexists W₀; iexact HO

def reg0 : Pipeline.RegionSeg (pcfgs (F := F)) adm (pdats m) () defs₀ 𝒱₀ L lv 0 :=
  regOf (pdats m) 0 launch0.win.to₀ launch0.block_pos launch0.stage_whole (W0 m) (W1 m)
    (body_obligation0 (V0 m)) (fun _ _ => rfl) (fun _ => rfl) (hin0 (V0 m)) (hout0 (V0 m))
    (fun c => Pipeline.arrays_of_unscopedBufs (p := 0) (pcfgs (F := F)) adm (pdats m) launch0.win launch0.arr_whole c
      ((pdats m 0 c).share_full fun _ => rfl) (V0 m c) (A_eq0 (V0 m) c))
    (fun c => Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (fun w => (W1_arr m c w).symm)
      fun b hb => W1_of_ne m c b fun w e => hb (Finset.mem_image.mpr ⟨w, Finset.mem_univ _, e⟩))

def reg1 : Pipeline.RegionSeg (pcfgs (F := F)) adm (pdats m) () defs₀ 𝒱₀ L lv 1 :=
  regOf (pdats m) 1 launch1.win.to₀ launch1.block_pos launch1.stage_whole (W1 m) (W2 m)
    (body_obligation1 (V1 m)) (fun _ _ => rfl) (fun _ => rfl) (hin1 (V1 m)) (hout1 (V1 m))
    (fun c => Pipeline.arrays_of_unscopedBufs (p := 1) (pcfgs (F := F)) adm (pdats m) launch1.win launch1.arr_whole c
      ((pdats m 1 c).share_full fun _ => rfl) (V1 m c) (A_eq1 (V1 m) c))
    (fun c => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (fun w => (W2_arr m c w).symm)
      fun b hb => W2_of_ne m c b fun w e => hb (Finset.mem_image.mpr ⟨w, Finset.mem_univ _, e⟩))

def reg2 : Pipeline.RegionSeg (pcfgs (F := F)) adm (pdats m) () defs₀ 𝒱₀ L lv 2 :=
  regOf (pdats m) 2 winFacts₀2 block_pos2 stage_whole2 (W3 m) (W4 m)
    (body_obligation2 (V3 m)) (fun _ _ => rfl) (fun _ => rfl) (hin2 (V3 m)) (hout2 (V3 m))
    (fun c => twin_entry (cfg := cfg2) (pdats m 2 c) twin2 winFacts₀2.arr_unscoped arr_whole2 (V3 m c)
      (A_eq2 (V3 m) c) rfl rfl (q_eq2 (V3 m) c))
    (fun c => twin_exit (cfg := cfg2) (pdats m 2 c) twin2 winFacts₀2.arr_unscoped arr_whole2 (V3 m c) (V4 m c)
      (A_eq2 (V3 m) c) rfl rfl (q_eq2 (V3 m) c) 6 (by decide) (by decide)
      (W4_out m c).symm fun b hb => W4_of_ne m c b hb)

def reg3 : Pipeline.RegionSeg (pcfgs (F := F)) adm (pdats m) () defs₀ 𝒱₀ L lv 3 :=
  regOf (pdats m) 3 winFacts₀3 block_pos3 stage_whole3 (W5 m) (W6 m)
    (body_obligation3 (V5 m)) (fun _ _ => rfl) (fun _ => rfl) (hin3 (V5 m)) (hout3 (V5 m))
    (fun c => twin_entry (cfg := cfg3) (pdats m 3 c) twin3 winFacts₀3.arr_unscoped arr_whole3 (V5 m c)
      (A_eq3 (V5 m) c) rfl rfl (q_eq3 (V5 m) c))
    (fun c => twin_exit (cfg := cfg3) (pdats m 3 c) twin3 winFacts₀3.arr_unscoped arr_whole3 (V5 m c) (V6 m c)
      (A_eq3 (V5 m) c) rfl rfl (q_eq3 (V5 m) c) 5 (by decide) (by decide)
      (W6_out m c).symm fun b hb => W6_of_ne m c b hb)

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m),
    .host (hseg hostOps3 hostOps3_sub hostOps3_fresh (W4 m)),
    .region (reg3 m) ]

theorem main_run (c : Dev nD) : main (F := F) c = Pipeline.Seg.run (segs m) :=
  (main_chain c).trans (by chain_rfl)

/-- Call 0 leaves every buffer that is not one of its output arrays as it was. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    exact (W1_arr m c w).trans (((dat0 (V0 m) c).arrAt_in w (hb w rfl) _).trans (A_eq0 (V0 m) c w))
  · exact W1_of_ne m c b fun w e => h ⟨w, e⟩

theorem W2_keep (c : Dev nD) (b : Ref sig .tc) (hb : ∀ w, Pipeline.arrRef spec1 w = b → (cfg1.win w).isOut = false) :
    W2 m c (Proc.devRef .tc b) = W1 m c (Proc.devRef .tc b) := by
  by_cases h : ∃ w, Pipeline.arrRef spec1 w = b
  · obtain ⟨w, rfl⟩ := h
    exact (W2_arr m c w).trans (((dat1 (V1 m) c).arrAt_in w (hb w rfl) _).trans (A_eq1 (V1 m) c w))
  · exact W2_of_ne m c b fun w e => h ⟨w, e⟩

/-- A buffer that no call has as an output array and no host stretch writes ends as launched. -/
theorem W6_keep (c : Dev nD) (b : Ref sig .tc)
    (hb : (∀ w, Pipeline.arrRef spec0 w = b → (cfg0.win w).isOut = false) ∧ (∀ w, Pipeline.arrRef spec1 w = b → (cfg1.win w).isOut = false)
      ∧ b ≠ main_v2 ∧ b ≠ main_v3 ∧ b ≠ main_v4 ∧ b ≠ main_v5) :
    W6 m c (Proc.devRef .tc b) = W0 m c (Proc.devRef .tc b) :=
  (W6_of_ne m c b hb.2.2.2.2.2).trans <| (W5_of_ne m c b hb.2.2.2.2.1).trans <|
    (W4_of_ne m c b hb.2.2.2.1).trans <| (W3_of_ne m c b hb.2.2.1).trans <|
    (W2_keep m c b hb.2.1).trans (W1_keep m c b hb.1)

abbrev result (c : Dev nD) : Buf (Elt F) ((c : Thread nD τ).loc main_v5) := W6 m c (Proc.devRef .tc main_v5)

theorem run_values : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main
    (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      have k := fun (b : Ref sig .tc) hs hb => (h c _ (mem_uc b hs)).trans (W6_keep m c b hb)
      ⟨h c _ (mem_uc main_v5 (by decide)), k main_arg0 (by decide) (by decide), k main_arg1 (by decide) (by decide),
       k main_arg2 (by decide) (by decide), k main_arg3 (by decide) (by decide), k main_arg4 (by decide) (by decide),
       k main_arg5 (by decide) (by decide)⟩)

end Run

end Cert.KernelIdeal.Hand

end
-- ==== Proof.Formulas.lean ====
import Idealize.ShloMosaic.PureOps.Ideal

noncomputable section

open scoped BigOperators

namespace Cert.Gcn

open Idealize.ShloMosaic

abbrev Mat (a b : Nat) : Type := Fin a → Fin b → EReal

def dinv (A : Mat 12288 12288) (i : Fin 12288) : EReal := Ideal.rsqrt ((∑ k, A i k) + 1)

def scaledXW (X : Mat 12288 512) (W : Mat 512 16) (d : Fin 12288 → EReal) : Mat 12288 16 :=
  fun i j => (∑ f, X i f * W f j) * d i

def layer1 (A : Mat 12288 12288) (M : Mat 12288 16) (d : Fin 12288 → EReal) (b1 : Fin 16 → EReal) (W2 : Mat 16 40) :
    Mat 12288 40 :=
  fun i j => d i * ∑ h, max (d i * ((∑ k, A i k * M k h) + M i h) + b1 h) 0 * W2 h j

def logits (A : Mat 12288 12288) (M : Mat 12288 40) (d : Fin 12288 → EReal) (b2 : Fin 40 → EReal) : Mat 12288 40 :=
  fun i j => d i * ((∑ k, A i k * M k j) + M i j) + b2 j

def logSoftmaxRow (v : Fin 40 → EReal) (j : Fin 40) : EReal :=
  (v j - Finset.univ.fold max ⊥ v) - Ideal.log (∑ j', Ideal.exp (v j' - Finset.univ.fold max ⊥ v))

def kernelOut (X : Mat 12288 512) (A : Mat 12288 12288) (W1 : Mat 512 16) (b1 : Fin 16 → EReal) (W2 : Mat 16 40)
    (b2 : Fin 40 → EReal) : Mat 12288 40 :=
  fun i => logSoftmaxRow (logits A (layer1 A (scaledXW X W1 (dinv A)) (dinv A) b1 W2) (dinv A) b2 i)

def aHat (A : Mat 12288 12288) : Mat 12288 12288 := fun i k => A i k + (if i = k then 1 else 0)

def refDinv (A : Mat 12288 12288) (i : Fin 12288) : EReal := Ideal.rsqrt (0 + ∑ k, aHat A i k)

def norm (A : Mat 12288 12288) : Mat 12288 12288 := fun i k => (aHat A i k * refDinv A i) * refDinv A k

def refHidden (X : Mat 12288 512) (A : Mat 12288 12288) (W1 : Mat 512 16) (b1 : Fin 16 → EReal) : Mat 12288 16 :=
  fun i h => max ((∑ k, norm A i k * ∑ f, X k f * W1 f h) + b1 h) 0

def refLogits (X : Mat 12288 512) (A : Mat 12288 12288) (W1 : Mat 512 16) (b1 : Fin 16 → EReal) (W2 : Mat 16 40)
    (b2 : Fin 40 → EReal) : Mat 12288 40 :=
  fun i j => (∑ k, norm A i k * ∑ h, refHidden X A W1 b1 k h * W2 h j) + b2 j

def refLogSoftmaxRow (v : Fin 40 → EReal) (j : Fin 40) : EReal :=
  (v j - max ⊥ (Finset.univ.fold max ⊥ v)) - Ideal.log (0 + ∑ j', Ideal.exp (v j' - max ⊥ (Finset.univ.fold max ⊥ v)))

def refOut (X : Mat 12288 512) (A : Mat 12288 12288) (W1 : Mat 512 16) (b1 : Fin 16 → EReal) (W2 : Mat 16 40)
    (b2 : Fin 40 → EReal) : Mat 12288 40 :=
  fun i => refLogSoftmaxRow (refLogits X A W1 b1 W2 b2 i)

-- Numbers below 12288 have equal 32-bit words only when equal: the compared iotas, as floats, are the identity matrix.
theorem eye_word (i k : Fin 12288) :
    (((IntOp.cmpi .eq (IntOp.addi (BitVec.ofNat 32 i.val) 0#32) (BitVec.ofNat 32 k.val)).toNat : ℝ) : EReal)
      = if i = k then 1 else 0 := by
  unfold IntOp.cmpi IntOp.addi
  simp only [BitVec.add_zero]
  by_cases e : i = k
  · subst e; simp
  · have hne : ¬ BitVec.ofNat 32 i.val = BitVec.ofNat 32 k.val := fun h => e (Fin.ext (by
      have h' := congrArg BitVec.toNat h
      simp only [BitVec.toNat_ofNat] at h'
      have hi := i.isLt
      have hk := k.isLt
      omega))
    simp [hne, e]

end Cert.Gcn

end
-- ==== Proof.KIPay.lean ====
import proofs.«431332_j55946243997874_3_alg».proof.Proof.Gen.KernelIdeal.Skeleton
import proofs.«431332_j55946243997874_3_alg».proof.Proof.Formulas
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayRead

open Cert.KernelIdeal Cert.KernelIdeal.Gen Idealize.ShloMosaic Idealize.ShloMosaic.ValueIdx

theorem ofBits_one_f32 : Ideal.ofBits .f32 0x3F800000#32 = 1 := by
  simp [Ideal.ofBits, Ideal.ieee, -EReal.coe_mul]; norm_num

theorem ofBits_neginf_f32 : Ideal.ofBits .f32 0xFF800000#32 = ⊥ := by
  simp [Ideal.ofBits, Ideal.ieee]

variable {α : Type}

/-- Row-major, entry `r` of a vector [n] and entry `(r, 0)` of the column [n, 1] have the same position. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    omega)

/-- A column [n, 1] spread over [n, m] repeats each row's one entry along the row. -/
theorem broadcastTo_a1_ab_apply {n m : ℕ} (v : (⟨2, ![n, 1]⟩ : Shape).Idx → α) (h : (⟨2, ![n, 1]⟩ : Shape).Broadcasts ⟨2, ![n, m]⟩)
    (r : Fin n) (c : Fin m) : broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

/-- Reducing [n, m] over its second axis, the entries that fall on row `r` are `(r, k)`. -/
theorem lift_ix1 {n m : ℕ} (h : (⟨2, ![n, m]⟩ : Shape).Reduces [1] ⟨1, ![n]⟩) (r : Fin n) (k : Fin m) :
    h.lift (ix1 r) k = ix2 r k := by
  funext d
  match d with
  | ⟨0, _⟩ => rfl
  | ⟨1, _⟩ => rfl

theorem rowSum_apply {n m : ℕ} (src : FVec Ideal ⟨2, ![n, m]⟩ .f32) (h : (⟨2, ![n, m]⟩ : Shape).Reduces [1] ⟨1, ![n]⟩) (r : Fin n) :
    multiReduction .add [1] ⟨1, ![n]⟩ src 0x00000000#32 h (.inl rfl) rfl (ix1 r) = ∑ k : Fin m, src (ix2 r k) :=
  (Ideal.multiReduction_add_single src 0x00000000#32 h (.inl rfl) rfl (ix1 r)).trans
    (Finset.sum_congr rfl fun k _ => congrArg src (lift_ix1 h r k))

theorem rowMax_apply {n m : ℕ} (src : FVec Ideal ⟨2, ![n, m]⟩ .f32) (h : (⟨2, ![n, m]⟩ : Shape).Reduces [1] ⟨1, ![n]⟩) (r : Fin n) :
    multiReduction .maximumf [1] ⟨1, ![n]⟩ src 0xFF800000#32 h (.inl rfl) rfl (ix1 r)
      = (Finset.univ : Finset (Fin m)).fold max ⊥ (fun k => src (ix2 r k)) := by
  refine (Ideal.multiReduction_maximumf_single src 0xFF800000#32 h (.inl rfl) rfl (ix1 r)).trans ?_
  rw [show (FloatOps.ofBits (F := Ideal) .f32 0xFF800000#32 : EReal) = ⊥ from ofBits_neginf_f32,
    show src ∘ h.lift (ix1 r) = fun k : Fin m => src (ix2 r k) from funext fun k => congrArg src (lift_ix1 h r k)]
  rfl

/-- A plain product [n, k] × [k, m] into the zero array, at (r, c): the sum over the contracted index of the products. -/
theorem matmul_plain_apply {n k m : ℕ} {φ₁ φ₂ : FTy} (D : DotDims ⟨2, ![n, k]⟩ ⟨2, ![k, m]⟩ ⟨2, ![n, m]⟩) (hD : D = DotDims.plain n k m)
    (x : FVec Ideal ⟨2, ![n, k]⟩ φ₁) (y : FVec Ideal ⟨2, ![k, m]⟩ φ₂) (r : Fin n) (c : Fin m) :
    matmul D none x y (constant (F := Ideal) ⟨2, ![n, m]⟩ .f32 0x00000000#32) (ix2 r c) = ∑ q : Fin k, x (ix2 r q) * y (ix2 q c) := by
  subst hD
  refine (Ideal.matmul_constant_zero_apply _ none x y (ix2 r c)).trans ?_
  rw [← Equiv.sum_comp (contrEquiv1 (DotDims.plain n k m) k rfl rfl).symm]
  refine Finset.sum_congr rfl fun q _ => ?_
  have hq := contrEquiv1_symm_val (DotDims.plain n k m) k rfl rfl q
  exact congrArg₂ (fun a b : EReal => a * b) (congrArg x (Shape.idx_ext₂ rfl hq)) (congrArg y (Shape.idx_ext₂ hq rfl))

theorem k0_pay1_apply (r : Fin 2048) : k0_pay1 (F := Ideal) (ix2 r (0 : Fin 1)) = 0 := by
  unfold k0_pay1
  rw [shapeCast_self]
  exact Ideal.ofBits_zero_f32

theorem k0_pay2_apply (v3 : FVec Ideal S2048x1024 .f32) (v4 : FVec Ideal S2048x1 .f32) (r : Fin 2048) :
    k0_pay2 (F := Ideal) v3 v4 (ix2 r (0 : Fin 1)) = v4 (ix2 r 0) + ∑ k : Fin 1024, v3 (ix2 r k) := by
  unfold k0_pay2
  rw [shapeCast_self]
  exact congrArg (fun z : EReal => v4 (ix2 r 0) + z) ((shapeCast_a_a1_apply _ _ r 0).trans (rowSum_apply v3 _ r))

theorem k0_pay4_apply (v16 : FVec Ideal S2048x1 .f32) (r : Fin 2048) :
    k0_pay4 (F := Ideal) v16 (ix2 r (0 : Fin 1)) = Ideal.rsqrt (v16 (ix2 r 0) + 1) := by
  unfold k0_pay4
  show Ideal.rsqrt (v16 (ix2 r 0) + Ideal.ofBits .f32 0x3F800000#32) = _
  rw [ofBits_one_f32]

theorem k1_pay1_apply (x0 : Vec Ideal S2048x512 .f32) (x1 : Vec Ideal S512x16 .f32) (x2 : Vec Ideal S2048x1 .f32) (p : Fin 2048) (q : Fin 16) :
    k1_pay1 (F := Ideal) x0 x1 x2 (ix2 p q) = (∑ k : Fin 512, x0 (ix2 p k) * x1 (ix2 k q)) * x2 (ix2 p (0 : Fin 1)) := by
  unfold k1_pay1
  rw [shapeCast_self]
  exact congrArg₂ (fun a b : EReal => a * b) (matmul_plain_apply _ rfl _ _ p q) (broadcastTo_a1_ab_apply x2 _ p q)

theorem k2_pay1_apply (r : Fin 2048) (h : Fin 16) : k2_pay1 (F := Ideal) (ix2 r h) = 0 := by
  unfold k2_pay1
  rw [shapeCast_self]
  exact Ideal.ofBits_zero_f32

theorem k2_pay2_apply (v3 : FVec Ideal S2048x16 .f32) (v4 : FVec Ideal S2048x3072 .bf16) (v6 : FVec Ideal S3072x16 .bf16)
    (r : Fin 2048) (h : Fin 16) :
    k2_pay2 (F := Ideal) v3 v4 v6 (ix2 r h) = v3 (ix2 r h) + ∑ k : Fin 3072, v4 (ix2 r k) * v6 (ix2 k h) := by
  unfold k2_pay2
  rw [shapeCast_self, shapeCast_self, shapeCast_self]
  exact congrArg (fun z : EReal => v3 (ix2 r h) + z) (matmul_plain_apply _ rfl v4 v6 r h)

theorem k2_pay3_apply (v16 : FVec Ideal S2048x1 .f32) (v18 : FVec Ideal S2048x16 .f32) (v19 : FVec Ideal S2048x16 .bf16)
    (v25 : FVec Ideal S1x16 .f32) (v32 : FVec Ideal S16x40 .f32) (r : Fin 2048) (j : Fin 40) :
    k2_pay3 (F := Ideal) v16 v18 v19 v25 v32 (ix2 r j)
      = v16 (ix2 r 0) * ∑ h : Fin 16, max (v16 (ix2 r 0) * (v18 (ix2 r h) + v19 (ix2 r h)) + v25 (ix2 (0 : Fin 1) h)) 0 * v32 (ix2 h j) := by
  unfold k2_pay3
  rw [shapeCast_self, shapeCast_self, shapeCast_self]
  refine (congrArg₂ (fun a b : EReal => a * b) (broadcastTo_a1_ab_apply v16 _ r j) (matmul_plain_apply _ rfl _ _ r j)).trans ?_
  refine congrArg (fun z : EReal => v16 (ix2 r 0) * z) (Finset.sum_congr rfl fun h _ => ?_)
  refine congrArg (fun z : EReal => z * v32 (ix2 h j)) ?_
  show max (broadcastTo S2048x16 v16 _ (ix2 r h) * (v18 (ix2 r h) + v19 (ix2 r h)) + broadcastTo S2048x16 v25 _ (ix2 r h)) (Ideal.ofBits .f32 0x00000000#32) = _
  rw [broadcastTo_a1_ab_apply, broadcastTo_1b_ab_apply, Ideal.ofBits_zero_f32]

theorem k3_pay1_apply (r : Fin 2048) (j : Fin 40) : k3_pay1 (F := Ideal) (ix2 r j) = 0 := by
  unfold k3_pay1
  rw [shapeCast_self]
  exact Ideal.ofBits_zero_f32

theorem k3_pay2_apply (v3 : FVec Ideal S2048x40 .f32) (v4 : FVec Ideal S2048x3072 .bf16) (v6 : FVec Ideal S3072x40 .bf16)
    (r : Fin 2048) (j : Fin 40) :
    k3_pay2 (F := Ideal) v3 v4 v6 (ix2 r j) = v3 (ix2 r j) + ∑ k : Fin 3072, v4 (ix2 r k) * v6 (ix2 k j) := by
  unfold k3_pay2
  rw [shapeCast_self, shapeCast_self, shapeCast_self]
  exact congrArg (fun z : EReal => v3 (ix2 r j) + z) (matmul_plain_apply _ rfl v4 v6 r j)

/-- The row maximum of an array, spread back over its rows. -/
abbrev rowMaxArr (L : FVec Ideal S2048x40 .f32) : FVec Ideal S2048x40 .f32 :=
  broadcastTo S2048x40 (shapeCast S2048x1 (multiReduction .maximumf [1] S2048 L 0xFF800000#32 reduces_S2048x40_S2048 (.inl rfl) rfl) shapeCasts_S2048_S2048x1) broadcasts_S2048x1_S2048x40

theorem rowMaxArr_apply (L : FVec Ideal S2048x40 .f32) (r : Fin 2048) (c : Fin 40) :
    rowMaxArr L (ix2 r c) = (Finset.univ : Finset (Fin 40)).fold max ⊥ (fun k => L (ix2 r k)) :=
  (broadcastTo_a1_ab_apply _ _ r c).trans ((shapeCast_a_a1_apply _ _ r 0).trans (rowMax_apply L _ r))

/-- The shifted log-softmax of an array's rows, operation by operation, is each row's log-softmax. -/
theorem logSoftmax_arr_apply (L : FVec Ideal S2048x40 .f32) (r : Fin 2048) (j : Fin 40) :
    subf (subf L (rowMaxArr L)) (broadcastTo S2048x40 (log (shapeCast S2048x1 (multiReduction .add [1] S2048
        (exp (subf L (rowMaxArr L))) 0x00000000#32 reduces_S2048x40_S2048 (.inl rfl) rfl) shapeCasts_S2048_S2048x1)) broadcasts_S2048x1_S2048x40) (ix2 r j)
      = Cert.Gcn.logSoftmaxRow (fun j => L (ix2 r j)) j := by
  unfold Cert.Gcn.logSoftmaxRow
  show (L (ix2 r j) - rowMaxArr L (ix2 r j)) - broadcastTo S2048x40 _ _ (ix2 r j) = _
  refine congrArg₂ (fun a b : EReal => a - b) (congrArg (fun z : EReal => L (ix2 r j) - z) (rowMaxArr_apply L r j)) ?_
  refine (broadcastTo_a1_ab_apply _ _ r j).trans ?_
  show Ideal.log (shapeCast S2048x1 _ _ (ix2 r (0 : Fin 1))) = _
  refine congrArg Ideal.log (((shapeCast_a_a1_apply _ _ r 0).trans (rowSum_apply _ _ r)).trans (Finset.sum_congr rfl fun c _ => ?_))
  show Ideal.exp (L (ix2 r c) - rowMaxArr L (ix2 r c)) = _
  rw [rowMaxArr_apply]

theorem k3_pay3_apply (v16 : FVec Ideal S2048x1 .f32) (v18 : FVec Ideal S2048x40 .f32) (v19 : FVec Ideal S2048x40 .bf16)
    (v25 : FVec Ideal S1x40 .f32) (r : Fin 2048) (j : Fin 40) :
    k3_pay3 (F := Ideal) v16 v18 v19 v25 (ix2 r j)
      = Cert.Gcn.logSoftmaxRow (fun j => v16 (ix2 r 0) * (v18 (ix2 r j) + v19 (ix2 r j)) + v25 (ix2 (0 : Fin 1) j)) j := by
  unfold k3_pay3
  rw [shapeCast_self, shapeCast_self, shapeCast_self]
  refine (logSoftmax_arr_apply _ r j).trans (congrArg (fun f : Fin 40 → EReal => Cert.Gcn.logSoftmaxRow f j) (funext fun c => ?_))
  show broadcastTo S2048x40 v16 _ (ix2 r c) * (v18 (ix2 r c) + v19 (ix2 r c)) + broadcastTo S2048x40 v25 _ (ix2 r c) = _
  rw [broadcastTo_a1_ab_apply, broadcastTo_1b_ab_apply]

end Cert.KernelIdeal.PayRead

end
-- ==== Proof.KISums.lean ====
import Mathlib.Data.EReal.Basic
import Mathlib.Algebra.BigOperators.Fin
import Mathlib.Algebra.BigOperators.Group.Finset.Basic

noncomputable section

open scoped BigOperators

namespace Cert.Gcn.Sums

def blockSum (s : ℕ) (f : ℕ → EReal) (b : ℕ) : EReal := ∑ q : Fin s, f (b * s + q.val)

theorem sum_range_succ_block (s : ℕ) (f : ℕ → EReal) (n : ℕ) :
    ∑ j ∈ Finset.range ((n + 1) * s), f j = ∑ j ∈ Finset.range (n * s), f j + blockSum s f n := by
  rw [blockSum, ← Finset.sum_range fun q => f (n * s + q), Nat.succ_mul, Finset.sum_range_add]

/-- By induction on the block: the running sum after block `k` is the sum of the first `(k + 1) * s` positions. -/
theorem acc_eq_range (s nb : ℕ) (f : ℕ → EReal) (acc : ℕ → EReal)
    (h0 : acc 0 = 0 + blockSum s f 0) (hs : ∀ k, k + 1 < nb → acc (k + 1) = acc k + blockSum s f (k + 1)) :
    ∀ k, k < nb → acc k = ∑ j ∈ Finset.range ((k + 1) * s), f j
  | 0, _ => by rw [h0, sum_range_succ_block, Nat.zero_mul, Finset.sum_range_zero]
  | k + 1, hk => by
    rw [hs k hk, acc_eq_range s nb f acc h0 hs k (Nat.lt_of_succ_lt hk), ← sum_range_succ_block]

theorem blk_lt {s nb b q : ℕ} (hb : b < nb) (hq : q < s) : b * s + q < nb * s :=
  lt_of_lt_of_le (by rw [Nat.succ_mul]; omega) (Nat.mul_le_mul_right s hb)

/-- A quantity that is reset to a point's block sum at the first point of each run of `nb` and gains it at every other point holds, at a run's last point, the sum over the whole axis. -/
theorem last_eq_sum {N : ℕ} (s nb : ℕ) (hnb : 0 < nb) (A : (n : ℕ) → n < N → EReal) (B : Fin N → EReal)
    (hr : ∀ t : Fin N, t.val % nb = 0 → A t.val t.isLt = 0 + B t)
    (hs : ∀ t : Fin N, ¬t.val % nb = 0 → A t.val t.isLt = A (t.val - 1) (Nat.lt_of_le_of_lt (Nat.sub_le _ _) t.isLt) + B t)
    (f : Fin (nb * s) → EReal) (t : Fin N) (hl : t.val % nb = nb - 1)
    (hB : ∀ u : Fin N, u.val / nb = t.val / nb → B u = ∑ x : Fin s, f ⟨u.val % nb * s + x.val, blk_lt (Nat.mod_lt _ hnb) x.isLt⟩) :
    A t.val t.isLt = ∑ k, f k := by
  have ht : nb * (t.val / nb) + (nb - 1) = t.val := by rw [← hl]; exact Nat.div_add_mod _ _
  have hlt := t.isLt
  have hmod : ∀ j, j < nb → (nb * (t.val / nb) + j) % nb = j := fun j hj => by rw [Nat.mul_add_mod, Nat.mod_eq_of_lt hj]
  have hdiv : ∀ j, j < nb → (nb * (t.val / nb) + j) / nb = t.val / nb := fun j hj => by
    rw [Nat.mul_add_div hnb, Nat.div_eq_of_lt hj, Nat.add_zero]
  let g : ℕ → EReal := fun n => if hn : n < nb * s then f ⟨n, hn⟩ else 0
  have hg : ∀ b (hb : b < nb), blockSum s g b = ∑ x : Fin s, f ⟨b * s + x.val, blk_lt hb x.isLt⟩ :=
    fun b hb => Finset.sum_congr rfl fun x _ => dif_pos (blk_lt hb x.isLt)
  have hBj : ∀ j (hj : j < nb) (h : nb * (t.val / nb) + j < N), B ⟨nb * (t.val / nb) + j, h⟩ = blockSum s g j := fun j hj h =>
    (hB ⟨_, h⟩ (hdiv j hj)).trans <| (Finset.sum_congr rfl fun x _ => congrArg f (Fin.ext (by
      show (nb * (t.val / nb) + j) % nb * s + x.val = j * s + x.val; rw [hmod j hj]))).trans (hg j hj).symm
  let acc : ℕ → EReal := fun j => if hj : nb * (t.val / nb) + j < N then A (nb * (t.val / nb) + j) hj else 0
  have ha : ∀ j (hj : nb * (t.val / nb) + j < N), acc j = A (nb * (t.val / nb) + j) hj := fun j hj => dif_pos hj
  have same : ∀ (u : ℕ) (hu : u < N), u = t.val → A u hu = A t.val t.isLt := fun u hu e => by subst e; rfl
  rw [← same _ (by omega) ht, ← ha, acc_eq_range s nb g acc
      ((ha 0 (by omega)).trans <| (hr ⟨_, by omega⟩ (hmod 0 hnb)).trans (congrArg (fun z => (0 : EReal) + z) (hBj 0 hnb _)))
      (fun k hk => (ha (k + 1) (by omega)).trans <|
        (hs ⟨_, by omega⟩ (by show ¬(nb * (t.val / nb) + (k + 1)) % nb = 0; rw [hmod (k + 1) hk]; exact Nat.succ_ne_zero k)).trans <|
          congrArg₂ (fun a b : EReal => a + b) (ha k (by omega)).symm (hBj (k + 1) hk _))
      (nb - 1) (by omega), Nat.sub_add_cancel hnb, Finset.sum_range]
  exact Finset.sum_congr rfl fun k _ => dif_pos k.isLt

end Cert.Gcn.Sums

end
-- ==== Proof.KIVal0.lean ====
import proofs.«431332_j55946243997874_3_alg».proof.Proof.KIReg0
import proofs.«431332_j55946243997874_3_alg».proof.Proof.KIPay
import proofs.«431332_j55946243997874_3_alg».proof.Proof.KISums
import proofs.«431332_j55946243997874_3_alg».proof.Proof.Formulas
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Each window's block index at point `t`: `t / 12` is the row block, `t % 12` the column block. -/
theorem index0 : ∀ t : Fin grid0.N, (win0_0.index t 0 = t.val / 12 ∧ win0_0.index t 1 = t.val % 12)
    ∧ (win0_1.index t 0 = t.val / 12 ∧ win0_1.index t 1 = t.val % 12) ∧ (win0_2.index t 0 = t.val / 12 ∧ win0_2.index t 1 = 0) := by
  decide +kernel

/-- A block's entry is the adjacency's entry at the block's offset plus the entry's place in the block. -/
theorem iblk0_0_apply (c : Dev nD) (t : Fin cfg0.N) (x : S2048x1024.Idx) (k : S12288x12288.Idx)
    (hk0 : (k 0).val = 2048 * (t.val / 12) + (x 0).val) (hk1 : (k 1).val = t.val % 12 * 1024 + (x 1).val) :
    (iblk0 V c 0 t : Vec Ideal S2048x1024 .f32) x = (V c main_arg1 : S12288x12288.Idx → Elt Ideal .f32) k := by
  unfold iblk0
  rw [View.read_apply]
  show V c main_arg1 _ = V c main_arg1 _
  exact congrArg (V c main_arg1) (Shape.idx_ext₂
    (by show win0_0.index t 0 * 2048 + 1 * (x 0).val = (k 0).val; rw [(index0 t).1.1, hk0]; omega)
    (by show win0_0.index t 1 * 1024 + 1 * (x 1).val = (k 1).val; rw [(index0 t).1.2, hk1]; omega))

def Gadj0 (c : Dev nD) : Buf (Elt Ideal) ((c : Thread nD τ).loc main_v0_0) :=
  fun idx : S12288x12288.Idx => (V c main_arg1 : S12288x12288.Idx → Elt Ideal .f32) idx

/-- Every point stores the block it read, and the two windows' blocks sit at the same offsets. -/
theorem flushed0A_eq (c : Dev nD) (t : Fin cfg0.N) (hf : (cfg0.win 1).flush t = true) :
    (dat0 (F := Ideal) V c).flushed 1 t = ((cfg0.win 1).blk t).view.read (Elt Ideal) (Gadj0 V c) := by
  show (cfg0.win 1).cut (grid0.coords t) ((dat0 (F := Ideal) V c).after 1 t) = _
  rw [after0_1]
  refine funext fun (y : S2048x1024.Idx) => ?_
  rw [View.read_apply]
  exact iblk0_0_apply V c t y _
    (by show win0_1.index t 0 * 2048 + 1 * (y 0).val = _; rw [(index0 t).2.1.1]; omega)
    (by show win0_1.index t 1 * 1024 + 1 * (y 1).val = _; rw [(index0 t).2.1.2]; omega)

/-- Every entry lies in the block of the point (row / 2048, column / 1024). -/
theorem cover0A (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 72 := N_0
  have h0 : ((i 0 : Fin 12288) : Nat) < 12288 := (i 0).isLt
  have h1 : ((i 1 : Fin 12288) : Nat) < 12288 := (i 1).isLt
  obtain ⟨t, ht⟩ : ∃ t : Fin cfg0.N, t.val = (i 0 : Fin 12288).val / 2048 * 12 + (i 1 : Fin 12288).val / 1024 := ⟨⟨_, by omega⟩, rfl⟩
  refine ⟨t, flush0_1 t, ?_⟩
  show i ∈ ((View.whole main_v0_0).slice (win0_1.rect t)).set
  rw [View.set_slice_whole, Rect.mem_set_unit]
  refine Fin.forall_fin_two.mpr ⟨?_, ?_⟩
  · show win0_1.index t 0 * 2048 ≤ (i 0 : Nat) ∧ (i 0 : Nat) < win0_1.index t 0 * 2048 + 2048
    rw [(index0 t).2.1.1]; omega
  · show win0_1.index t 1 * 1024 ≤ (i 1 : Nat) ∧ (i 1 : Nat) < win0_1.index t 1 * 1024 + 1024
    rw [(index0 t).2.1.2]; omega

theorem final0_adj (c : Dev nD) (i k : Fin 12288) :
    ((dat0 (F := Ideal) V c).arrAt 1 cfg0.N) (ix2 i k) = V c main_arg1 (ix2 i k) := by
  rw [(dat0 (F := Ideal) V c).arrAt_eq_of_cover 1 (Gadj0 V c) (flushed0A_eq V c) (cover0A c)]
  rfl

def adj0 (c : Dev nD) : Cert.Gcn.Mat 12288 12288 := fun i k => V c main_arg1 (ix2 i k)

/-- After the last of a row block's twelve steps the accumulator holds the adjacency's whole row sum. -/
theorem acc0_last (c : Dev nD) (t : Fin cfg0.N) (h11 : t.val % 12 = 11) (p : Fin 2048) (i : Fin 12288)
    (hi : i.val = 2048 * (t.val / 12) + p.val) :
    acc0 (F := Ideal) V c t.val t.isLt (ix2 p (0 : Fin 1)) = ∑ k : Fin 12288, adj0 V c i k :=
  Cert.Gcn.Sums.last_eq_sum 1024 12 (by decide) (fun n hn => acc0 (F := Ideal) V c n hn (ix2 p (0 : Fin 1)))
    (fun u => ∑ x : Fin 1024, ((iblk0 V c 0 u : Vec Ideal S2048x1024 .f32) (ix2 p x) : EReal))
    (fun u h0 => by rw [acc0_reset V c u h0, PayRead.k0_pay2_apply, PayRead.k0_pay1_apply])
    (fun u h0 => by rw [acc0_step V c u h0, PayRead.k0_pay2_apply])
    (adj0 V c i) t h11
    (fun u hu => Finset.sum_congr rfl fun x _ =>
      iblk0_0_apply V c u (ix2 p x) (ix2 i ⟨_, Cert.Gcn.Sums.blk_lt (nb := 12) (Nat.mod_lt _ (by decide)) x.isLt⟩) (hu ▸ hi) rfl)

def Gdinv0 (c : Dev nD) : Buf (Elt Ideal) ((c : Thread nD τ).loc main_v0_1) :=
  fun idx : S12288x1.Idx => Cert.Gcn.dinv (adj0 V c) (idx 0)

/-- What a row block's last point stores at a block entry is the formula at the entry's place in the array. -/
theorem flushed0D_at (c : Dev nD) (t : Fin cfg0.N) (h11 : t.val % 12 = 11) (p : Fin 2048) :
    k0_pay4 (F := Ideal) (acc0 V c t.val t.isLt) (ix2 p (0 : Fin 1))
      = Gdinv0 V c (((cfg0.win 2).blk t).view.emb (ix2 p (0 : Fin 1))) := by
  have hN : cfg0.N = 72 := N_0
  have ht := t.isLt
  have hp := p.isLt
  obtain ⟨i, hi⟩ : ∃ i : Fin 12288, i.val = 2048 * (t.val / 12) + p.val := ⟨⟨_, by omega⟩, rfl⟩
  have he : (((cfg0.win 2).blk t).view.emb (ix2 p (0 : Fin 1)) : S12288x1.Idx) = ix2 i (0 : Fin 1) :=
    Shape.idx_ext₂ (by show win0_2.index t 0 * 2048 + 1 * p.val = i.val; rw [(index0 t).2.2.1, hi]; omega)
      (by show win0_2.index t 1 * 1 + 1 * 0 = 0; rw [(index0 t).2.2.2])
  rw [he, PayRead.k0_pay4_apply, acc0_last V c t h11 p i hi]
  rfl

theorem flushed0D_eq (c : Dev nD) (t : Fin cfg0.N) (hf : (cfg0.win 2).flush t = true) :
    (dat0 (F := Ideal) V c).flushed 2 t = ((cfg0.win 2).blk t).view.read (Elt Ideal) (Gdinv0 V c) := by
  show (cfg0.win 2).cut (grid0.coords t) ((dat0 (F := Ideal) V c).after 2 t) = _
  rw [after0_2]
  refine funext fun (y : S2048x1.Idx) => ?_
  obtain ⟨p, rfl⟩ : ∃ p : Fin 2048, y = ix2 p (0 : Fin 1) :=
    ⟨y 0, funext fun a => by
      match a with
      | ⟨0, _⟩ => rfl
      | ⟨1, _⟩ => exact Subsingleton.elim (α := Fin 1) _ _⟩
  rw [View.read_apply]
  exact flushed0D_at V c t ((flush0_2 t).mp hf) p

/-- Every row lies in the block stored by the last step of its row block. -/
theorem cover0D (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 72 := N_0
  have h0 : ((i 0 : Fin 12288) : Nat) < 12288 := (i 0).isLt
  have h1 : ((i 1 : Fin 1) : Nat) < 1 := (i 1).isLt
  obtain ⟨t, ht⟩ : ∃ t : Fin cfg0.N, t.val = (i 0 : Fin 12288).val / 2048 * 12 + 11 := ⟨⟨_, by omega⟩, rfl⟩
  refine ⟨t, (flush0_2 t).mpr (by omega), ?_⟩
  show i ∈ ((View.whole main_v0_1).slice (win0_2.rect t)).set
  rw [View.set_slice_whole, Rect.mem_set_unit]
  refine Fin.forall_fin_two.mpr ⟨?_, ?_⟩
  · show win0_2.index t 0 * 2048 ≤ (i 0 : Nat) ∧ (i 0 : Nat) < win0_2.index t 0 * 2048 + 2048
    rw [(index0 t).2.2.1]; omega
  · show win0_2.index t 1 * 1 ≤ (i 1 : Nat) ∧ (i 1 : Nat) < win0_2.index t 1 * 1 + 1
    rw [(index0 t).2.2.2]; omega

theorem final0_dinv (c : Dev nD) (i : Fin 12288) :
    ((dat0 (F := Ideal) V c).arrAt 2 cfg0.N) (ix2 i (0 : Fin 1)) = Cert.Gcn.dinv (fun i k => V c main_arg1 (ix2 i k)) i := by
  rw [(dat0 (F := Ideal) V c).arrAt_eq_of_cover 2 (Gdinv0 V c) (flushed0D_eq V c) (cover0D c)]
  rfl

end Cert.KernelIdeal.Hand

end
-- ==== Proof.KIVal1.lean ====
import proofs.«431332_j55946243997874_3_alg».proof.Proof.KIReg1
import proofs.«431332_j55946243997874_3_alg».proof.Proof.KIPay
import proofs.«431332_j55946243997874_3_alg».proof.Proof.Formulas
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem hz : (![0, 0] : Fin 2 → Nat) = fun _ => 0 := funext fun a => by fin_cases a <;> rfl

/-- One store over the whole array leaves the stored value. -/
theorem out1_3_eq {F : FTy → Type} [FloatOps F] (x0 : Vec F S2048x512 .f32) (x1 : Vec F S512x16 .f32) (x2 : Vec F S2048x1 .f32) :
    out1_3 x0 x1 x2 = k1_pay1 x0 x1 x2 := by
  unfold out1_3
  rw [View.canon_unit_zero hz]
  simp only [View.ld_unit_zero (S := S2048x512) hz, View.ld_unit_zero (S := S512x16) hz, View.ld_unit_zero (S := S2048x1) hz]

variable (V : (c : Dev nD) → (b : Ref sig .tc) → Buf (Elt Ideal) ((c : Thread nD τ).loc b))

/-- Each window's block index at a grid point: the row block is the point, the column block is zero; the weights stay. -/
theorem index1 (t : Fin cfg1.N) : (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = t.val ∧ win1_3.index t 1 = 0) := by
  rcases fin_N1 t with rfl | rfl | rfl | rfl | rfl | rfl <;> decide

/-- A block's entry is its array's entry at the block's offset plus the entry's place in the block. -/
theorem iblk1_0_apply (c : Dev nD) (t : Fin cfg1.N) (p : Fin 2048) (f : Fin 512) (i : Fin 12288) (hi : i.val = 2048 * t.val + p.val) :
    (iblk1 V c 0 t : Vec Ideal S2048x512 .f32) (ix2 p f) = (V c main_arg0 : S12288x512.Idx → Elt Ideal .f32) (ix2 i f) := by
  unfold iblk1
  rw [View.read_apply]
  show V c main_arg0 _ = V c main_arg0 _
  exact congrArg (V c main_arg0) (Shape.idx_ext₂
    (by show win1_0.index t 0 * 2048 + 1 * p.val = i.val; rw [(index1 t).1.1, hi]; omega)
    (by show win1_0.index t 1 * 512 + 1 * f.val = f.val; rw [(index1 t).1.2]; omega))

theorem iblk1_1_apply (c : Dev nD) (t : Fin cfg1.N) (f : Fin 512) (q : Fin 16) :
    (iblk1 V c 1 t : Vec Ideal S512x16 .f32) (ix2 f q) = (V c main_arg2 : S512x16.Idx → Elt Ideal .f32) (ix2 f q) := by
  unfold iblk1
  rw [View.read_apply]
  show V c main_arg2 _ = V c main_arg2 _
  exact congrArg (V c main_arg2) (Shape.idx_ext₂
    (by show win1_1.index t 0 * 512 + 1 * f.val = f.val; rw [(index1 t).2.1.1]; omega)
    (by show win1_1.index t 1 * 16 + 1 * q.val = q.val; rw [(index1 t).2.1.2]; omega))

theorem iblk1_2_apply (c : Dev nD) (t : Fin cfg1.N) (p : Fin 2048) (i : Fin 12288) (hi : i.val = 2048 * t.val + p.val) :
    (iblk1 V c 2 t : Vec Ideal S2048x1 .f32) (ix2 p (0 : Fin 1)) = (V c main_v0_1 : S12288x1.Idx → Elt Ideal .f32) (ix2 i (0 : Fin 1)) := by
  unfold iblk1
  rw [View.read_apply]
  show V c main_v0_1 _ = V c main_v0_1 _
  exact congrArg (V c main_v0_1) (Shape.idx_ext₂
    (by show win1_2.index t 0 * 2048 + 1 * p.val = i.val; rw [(index1 t).2.2.1.1, hi]; omega)
    (by show win1_2.index t 1 * 1 + 1 * 0 = 0; rw [(index1 t).2.2.1.2]))

def G1 (c : Dev nD) : Buf (Elt Ideal) ((c : Thread nD τ).loc main_v1) :=
  fun idx : S12288x16.Idx => Cert.Gcn.scaledXW (fun i f => V c main_arg0 (ix2 i f)) (fun f j => V c main_arg2 (ix2 f j))
    (fun i => V c main_v0_1 (ix2 i (0 : Fin 1))) (idx 0) (idx 1)

/-- What a point stores at a block entry is the formula at the entry's place in the array. -/
theorem flushed1_at (c : Dev nD) (t : Fin cfg1.N) (p : Fin 2048) (q : Fin 16) :
    k1_pay1 (F := Ideal) (iblk1 V c 0 t) (iblk1 V c 1 t) (iblk1 V c 2 t) (ix2 p q)
      = G1 V c (((cfg1.win 3).blk t).view.emb (ix2 p q)) := by
  have hN : cfg1.N = 6 := N_1
  have ht := t.isLt
  have hp := p.isLt
  have he : (((cfg1.win 3).blk t).view.emb (ix2 p q) : S12288x16.Idx) = ix2 (⟨2048 * t.val + p.val, by omega⟩ : Fin 12288) q :=
    Shape.idx_ext₂ (by show win1_3.index t 0 * 2048 + 1 * p.val = 2048 * t.val + p.val; rw [(index1 t).2.2.2.1]; omega)
      (by show win1_3.index t 1 * 16 + 1 * q.val = q.val; rw [(index1 t).2.2.2.2]; omega)
  rw [he, PayRead.k1_pay1_apply]
  exact congrArg₂ (fun a b : EReal => a * b)
    (Finset.sum_congr rfl fun f _ => congrArg₂ (fun a b : EReal => a * b) (iblk1_0_apply V c t p f _ rfl) (iblk1_1_apply V c t f q))
    (iblk1_2_apply V c t p _ rfl)

theorem flushed1_eq (c : Dev nD) (t : Fin cfg1.N) (hf : (cfg1.win 3).flush t = true) :
    (dat1 (F := Ideal) V c).flushed 3 t = ((cfg1.win 3).blk t).view.read (Elt Ideal) (G1 V c) := by
  show (cfg1.win 3).cut (grid1.coords t) ((dat1 (F := Ideal) V c).after 3 t) = _
  rw [after1_3, out1_3_eq]
  refine funext fun (y : S2048x16.Idx) => ?_
  rw [View.read_apply, eq_ix2 (n0 := 2048) (n1 := 16) y]
  exact flushed1_at V c t (y 0) (y 1)

/-- Every entry of the array lies in the block of rows its row falls in. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 6 := N_1
  have h0 : ((i 0 : Fin 12288) : Nat) < 12288 := (i 0).isLt
  have h1 : ((i 1 : Fin 16) : Nat) < 16 := (i 1).isLt
  obtain ⟨t, ht⟩ : ∃ t : Fin cfg1.N, t.val = (i 0 : Fin 12288).val / 2048 := ⟨⟨_, by omega⟩, rfl⟩
  refine ⟨t, flush1_3 t, ?_⟩
  show i ∈ ((View.whole main_v1).slice (win1_3.rect t)).set
  rw [View.set_slice_whole, Rect.mem_set_unit]
  refine Fin.forall_fin_two.mpr ⟨?_, ?_⟩
  · show win1_3.index t 0 * 2048 ≤ (i 0 : Nat) ∧ (i 0 : Nat) < win1_3.index t 0 * 2048 + 2048
    rw [(index1 t).2.2.2.1]; omega
  · show win1_3.index t 1 * 16 ≤ (i 1 : Nat) ∧ (i 1 : Nat) < win1_3.index t 1 * 16 + 16
    rw [(index1 t).2.2.2.2]; omega

theorem final1 (c : Dev nD) (i : Fin 12288) (j : Fin 16) :
    ((dat1 (F := Ideal) V c).arrAt 3 cfg1.N) (ix2 i j)
      = Cert.Gcn.scaledXW (fun i f => V c main_arg0 (ix2 i f)) (fun f j => V c main_arg2 (ix2 f j))
          (fun i => V c main_v0_1 (ix2 i (0 : Fin 1))) i j := by
  rw [(dat1 (F := Ideal) V c).arrAt_eq_of_cover 3 (G1 V c) (flushed1_eq V c) (cover1 c)]
  rfl

end Cert.KernelIdeal.Hand

end
-- ==== Proof.KIVal2.lean ====
import proofs.«431332_j55946243997874_3_alg».proof.Proof.KIReg2
import proofs.«431332_j55946243997874_3_alg».proof.Proof.KIPay
import proofs.«431332_j55946243997874_3_alg».proof.Proof.KISums
import proofs.«431332_j55946243997874_3_alg».proof.Proof.Formulas
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Each window's block index at point `t`: `t / 4` is the row block, `t % 4` the contraction block. -/
theorem index2 : ∀ t : Fin grid2.N, (win2_0.index t 0 = t.val / 4 ∧ win2_0.index t 1 = t.val % 4) ∧ (win2_1.index t 0 = t.val % 4 ∧ win2_1.index t 1 = 0)
    ∧ (win2_2.index t 0 = t.val / 4 ∧ win2_2.index t 1 = 0) ∧ (win2_3.index t 0 = t.val / 4 ∧ win2_3.index t 1 = 0)
    ∧ (win2_4.index t 0 = 0 ∧ win2_4.index t 1 = 0) ∧ (win2_5.index t 0 = 0 ∧ win2_5.index t 1 = 0)
    ∧ (win2_6.index t 0 = t.val / 4 ∧ win2_6.index t 1 = 0) := by decide +kernel

/-- A block's entry is its array's entry at the block's offset plus the entry's place in the block (this and the next five). -/
theorem iblk2_0_apply (c : Dev nD) (t : Fin cfg2.N) (p : Fin 2048) (i : Fin 12288) (hi : i.val = 2048 * (t.val / 4) + p.val) (k : Fin 3072) (j : Fin 12288) (hj : j.val = t.val % 4 * 3072 + k.val) :
    (iblk2 V c 0 t : Vec Ideal S2048x3072 .bf16) (ix2 p k) = (V c main_v0_0 : S12288x12288.Idx → Elt Ideal .bf16) (ix2 i j) := by
  unfold iblk2
  rw [View.read_apply]
  show V c main_v0_0 _ = V c main_v0_0 _
  exact congrArg (V c main_v0_0) (Shape.idx_ext₂
    (by show win2_0.index t 0 * 2048 + 1 * p.val = i.val; rw [(index2 t).1.1, hi]; omega)
    (by show win2_0.index t 1 * 3072 + 1 * k.val = j.val; rw [(index2 t).1.2, hj]; omega))

theorem iblk2_1_apply (c : Dev nD) (t : Fin cfg2.N) (k : Fin 3072) (j : Fin 12288) (hj : j.val = t.val % 4 * 3072 + k.val) (h : Fin 16) :
    (iblk2 V c 1 t : Vec Ideal S3072x16 .bf16) (ix2 k h) = (V c main_v1 : S12288x16.Idx → Elt Ideal .bf16) (ix2 j h) := by
  unfold iblk2
  rw [View.read_apply]
  show V c main_v1 _ = V c main_v1 _
  exact congrArg (V c main_v1) (Shape.idx_ext₂
    (by show win2_1.index t 0 * 3072 + 1 * k.val = j.val; rw [(index2 t).2.1.1, hj]; omega)
    (by show win2_1.index t 1 * 16 + 1 * h.val = h.val; rw [(index2 t).2.1.2]; omega))

theorem iblk2_2_apply (c : Dev nD) (t : Fin cfg2.N) (p : Fin 2048) (i : Fin 12288) (hi : i.val = 2048 * (t.val / 4) + p.val) (h : Fin 16) :
    (iblk2 V c 2 t : Vec Ideal S2048x16 .bf16) (ix2 p h) = (V c main_v1 : S12288x16.Idx → Elt Ideal .bf16) (ix2 i h) := by
  unfold iblk2
  rw [View.read_apply]
  show V c main_v1 _ = V c main_v1 _
  exact congrArg (V c main_v1) (Shape.idx_ext₂
    (by show win2_2.index t 0 * 2048 + 1 * p.val = i.val; rw [(index2 t).2.2.1.1, hi]; omega)
    (by show win2_2.index t 1 * 16 + 1 * h.val = h.val; rw [(index2 t).2.2.1.2]; omega))

theorem iblk2_3_apply (c : Dev nD) (t : Fin cfg2.N) (p : Fin 2048) (i : Fin 12288) (hi : i.val = 2048 * (t.val / 4) + p.val) :
    (iblk2 V c 3 t : Vec Ideal S2048x1 .f32) (ix2 p (0 : Fin 1)) = (V c main_v0_1 : S12288x1.Idx → Elt Ideal .f32) (ix2 i (0 : Fin 1)) := by
  unfold iblk2
  rw [View.read_apply]
  show V c main_v0_1 _ = V c main_v0_1 _
  exact congrArg (V c main_v0_1) (Shape.idx_ext₂
    (by show win2_3.index t 0 * 2048 + 1 * p.val = i.val; rw [(index2 t).2.2.2.1.1, hi]; omega)
    (by show win2_3.index t 1 * 1 + 1 * 0 = 0; rw [(index2 t).2.2.2.1.2]))

theorem iblk2_4_apply (c : Dev nD) (t : Fin cfg2.N) (h : Fin 16) :
    (iblk2 V c 4 t : Vec Ideal S1x16 .f32) (ix2 (0 : Fin 1) h) = (V c main_v2 : S1x16.Idx → Elt Ideal .f32) (ix2 (0 : Fin 1) h) := by
  unfold iblk2
  rw [View.read_apply]
  show V c main_v2 _ = V c main_v2 _
  exact congrArg (V c main_v2) (Shape.idx_ext₂
    (by show win2_4.index t 0 * 1 + 1 * 0 = 0; rw [(index2 t).2.2.2.2.1.1])
    (by show win2_4.index t 1 * 16 + 1 * h.val = h.val; rw [(index2 t).2.2.2.2.1.2]; omega))

theorem iblk2_5_apply (c : Dev nD) (t : Fin cfg2.N) (j : Fin 40) (h : Fin 16) :
    (iblk2 V c 5 t : Vec Ideal S16x40 .f32) (ix2 h j) = (V c main_arg4 : S16x40.Idx → Elt Ideal .f32) (ix2 h j) := by
  unfold iblk2
  rw [View.read_apply]
  show V c main_arg4 _ = V c main_arg4 _
  exact congrArg (V c main_arg4) (Shape.idx_ext₂
    (by show win2_5.index t 0 * 16 + 1 * h.val = h.val; rw [(index2 t).2.2.2.2.2.1.1]; omega)
    (by show win2_5.index t 1 * 40 + 1 * j.val = j.val; rw [(index2 t).2.2.2.2.2.1.2]; omega))

def fAM2 (c : Dev nD) (i : Fin 12288) (h : Fin 16) : Fin 12288 → EReal :=
  fun k => (fun a b : EReal => a * b) (V c main_v0_0 (ix2 i k)) (V c main_v1 (ix2 k h))

/-- After the last of a row block's four steps the scratch holds the adjacency's whole row times the scaled features' column. -/
theorem acc2_flush (c : Dev nD) (t : Fin cfg2.N) (h3 : t.val % 4 = 3) (p : Fin 2048) (i : Fin 12288)
    (hi : i.val = 2048 * (t.val / 4) + p.val) (h : Fin 16) :
    acc2 (F := Ideal) V c t.val t.isLt (ix2 p h) = ∑ k : Fin 12288, fAM2 V c i h k :=
  Cert.Gcn.Sums.last_eq_sum 3072 4 (by decide) (fun n hn => acc2 (F := Ideal) V c n hn (ix2 p h))
    (fun u => ∑ x : Fin 3072, (fun a b : EReal => a * b) ((iblk2 V c 0 u : Vec Ideal S2048x3072 .bf16) (ix2 p x)) ((iblk2 V c 1 u : Vec Ideal S3072x16 .bf16) (ix2 x h)))
    (fun u h0 => by rw [acc2_reset V c u h0, PayRead.k2_pay2_apply, PayRead.k2_pay1_apply])
    (fun u h0 => by rw [acc2_step V c u h0, PayRead.k2_pay2_apply])
    (fAM2 V c i h) t h3
    (fun u hu => Finset.sum_congr rfl fun x _ => by
      rw [iblk2_0_apply V c u p i (hu ▸ hi) x ⟨_, Cert.Gcn.Sums.blk_lt (nb := 4) (Nat.mod_lt _ (by decide)) x.isLt⟩ rfl, iblk2_1_apply V c u x ⟨_, Cert.Gcn.Sums.blk_lt (nb := 4) (Nat.mod_lt _ (by decide)) x.isLt⟩ rfl h]
      rfl)

def G2 (c : Dev nD) : Buf (Elt Ideal) ((c : Thread nD τ).loc main_v3) :=
  fun idx : S12288x40.Idx => Cert.Gcn.layer1 (fun i k => V c main_v0_0 (ix2 i k)) (fun k h => V c main_v1 (ix2 k h))
    (fun i => V c main_v0_1 (ix2 i (0 : Fin 1))) (fun h => V c main_v2 (ix2 (0 : Fin 1) h)) (fun h j => V c main_arg4 (ix2 h j)) (idx 0) (idx 1)

/-- What a row block's last point stores at a block entry is the formula at the entry's place in the array. -/
theorem flushed2_at (c : Dev nD) (t : Fin cfg2.N) (h3 : t.val % 4 = 3) (p : Fin 2048) (j : Fin 40) :
    k2_pay3 (F := Ideal) (iblk2 V c 3 t) (acc2 V c t.val t.isLt) (iblk2 V c 2 t) (iblk2 V c 4 t) (iblk2 V c 5 t) (ix2 p j)
      = G2 V c (((cfg2.win 6).blk t).view.emb (ix2 p j)) := by
  have hN : cfg2.N = 24 := N_2
  have ht := t.isLt
  have hp := p.isLt
  obtain ⟨i, hi⟩ : ∃ i : Fin 12288, i.val = 2048 * (t.val / 4) + p.val := ⟨⟨_, by omega⟩, rfl⟩
  have he : (((cfg2.win 6).blk t).view.emb (ix2 p j) : S12288x40.Idx) = ix2 i j :=
    Shape.idx_ext₂ (by show win2_6.index t 0 * 2048 + 1 * p.val = i.val; rw [(index2 t).2.2.2.2.2.2.1, hi]; omega)
      (by show win2_6.index t 1 * 40 + 1 * j.val = j.val; rw [(index2 t).2.2.2.2.2.2.2]; omega)
  rw [he, PayRead.k2_pay3_apply]
  simp only [acc2_flush V c t h3 p i hi, iblk2_2_apply V c t p i hi, iblk2_3_apply V c t p i hi, iblk2_4_apply V c t, iblk2_5_apply V c t j]
  rfl

theorem flushed2_eq (c : Dev nD) (t : Fin cfg2.N) (hf : (cfg2.win 6).flush t = true) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  refine funext fun (y : S2048x40.Idx) => ?_
  rw [View.read_apply, eq_ix2 (n0 := 2048) (n1 := 40) y]
  exact flushed2_at V c t ((flush2_6 t).mp hf) (y 0) (y 1)

/-- Every entry of the array lies in the block stored by the last step of its row block. -/
theorem cover2 (c : Dev nD) (i : ((cfg2.win 6).arr.view.loc (c.tc : Thread nD τ)).2.ty.Idx) :
    ∃ t : Fin cfg2.N, (cfg2.win 6).flush t = true ∧ i ∈ ((cfg2.win 6).blk t).view.set := by
  have hN : cfg2.N = 24 := N_2
  have h0 : ((i 0 : Fin 12288) : Nat) < 12288 := (i 0).isLt
  have h1 : ((i 1 : Fin 40) : Nat) < 40 := (i 1).isLt
  obtain ⟨t, ht⟩ : ∃ t : Fin cfg2.N, t.val = 4 * ((i 0 : Fin 12288).val / 2048) + 3 := ⟨⟨_, by omega⟩, rfl⟩
  refine ⟨t, (flush2_6 t).mpr (by omega), ?_⟩
  show i ∈ ((View.whole main_v3).slice (win2_6.rect t)).set
  rw [View.set_slice_whole, Rect.mem_set_unit]
  refine Fin.forall_fin_two.mpr ⟨?_, ?_⟩
  · show win2_6.index t 0 * 2048 ≤ (i 0 : Nat) ∧ (i 0 : Nat) < win2_6.index t 0 * 2048 + 2048
    rw [(index2 t).2.2.2.2.2.2.1]; omega
  · show win2_6.index t 1 * 40 ≤ (i 1 : Nat) ∧ (i 1 : Nat) < win2_6.index t 1 * 40 + 40
    rw [(index2 t).2.2.2.2.2.2.2]; omega

theorem final2 (c : Dev nD) (i : Fin 12288) (j : Fin 40) :
    ((dat2 (F := Ideal) V c).arrAt 6 cfg2.N) (ix2 i j)
      = Cert.Gcn.layer1 (fun i k => V c main_v0_0 (ix2 i k)) (fun k h => V c main_v1 (ix2 k h))
          (fun i => V c main_v0_1 (ix2 i (0 : Fin 1))) (fun h => V c main_v2 (ix2 (0 : Fin 1) h))
          (fun h j => V c main_arg4 (ix2 h j)) i j := by
  rw [(dat2 (F := Ideal) V c).arrAt_eq_of_cover 6 (G2 V c) (flushed2_eq V c) (cover2 c)]
  rfl

end Cert.KernelIdeal.Hand

end
-- ==== Proof.KIVal3.lean ====
import proofs.«431332_j55946243997874_3_alg».proof.Proof.KIReg3
import proofs.«431332_j55946243997874_3_alg».proof.Proof.KIPay
import proofs.«431332_j55946243997874_3_alg».proof.Proof.KISums
import proofs.«431332_j55946243997874_3_alg».proof.Proof.Formulas
import Idealize.ShloMosaic.Lib.ValueIdx
import Idealize.ShloMosaic.Lib.Pipeline.Value
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- Each window's block index at point `t`: `t / 4` is the row block, `t % 4` the contraction block. -/
theorem index3 : ∀ t : Fin grid3.N, (win3_0.index t 0 = t.val / 4 ∧ win3_0.index t 1 = t.val % 4) ∧ (win3_1.index t 0 = t.val % 4 ∧ win3_1.index t 1 = 0)
    ∧ (win3_2.index t 0 = t.val / 4 ∧ win3_2.index t 1 = 0) ∧ (win3_3.index t 0 = t.val / 4 ∧ win3_3.index t 1 = 0)
    ∧ (win3_4.index t 0 = 0 ∧ win3_4.index t 1 = 0) ∧ (win3_5.index t 0 = t.val / 4 ∧ win3_5.index t 1 = 0) := by decide +kernel

/-- A block's entry is its array's entry at the block's offset plus the entry's place in the block (this and the next four). -/
theorem xb3_0_apply (c : Dev nD) (t : Fin cfg3.N) (p : Fin 2048) (i : Fin 12288) (hi : i.val = 2048 * (t.val / 4) + p.val) (k : Fin 3072) (j : Fin 12288) (hj : j.val = t.val % 4 * 3072 + k.val) :
    xb3_0 V c t (ix2 p k) = (V c main_v0_0 : S12288x12288.Idx → Elt Ideal .bf16) (ix2 i j) := by
  unfold xb3_0 iblk3
  rw [View.read_apply]
  show V c main_v0_0 _ = V c main_v0_0 _
  exact congrArg (V c main_v0_0) (Shape.idx_ext₂
    (by show win3_0.index t 0 * 2048 + 1 * p.val = i.val; rw [(index3 t).1.1, hi]; omega)
    (by show win3_0.index t 1 * 3072 + 1 * k.val = j.val; rw [(index3 t).1.2, hj]; omega))

theorem xb3_1_apply (c : Dev nD) (t : Fin cfg3.N) (k : Fin 3072) (j : Fin 12288) (hj : j.val = t.val % 4 * 3072 + k.val) (h : Fin 40) :
    xb3_1 V c t (ix2 k h) = (V c main_v3 : S12288x40.Idx → Elt Ideal .bf16) (ix2 j h) := by
  unfold xb3_1 iblk3
  rw [View.read_apply]
  show V c main_v3 _ = V c main_v3 _
  exact congrArg (V c main_v3) (Shape.idx_ext₂
    (by show win3_1.index t 0 * 3072 + 1 * k.val = j.val; rw [(index3 t).2.1.1, hj]; omega)
    (by show win3_1.index t 1 * 40 + 1 * h.val = h.val; rw [(index3 t).2.1.2]; omega))

theorem xb3_2_apply (c : Dev nD) (t : Fin cfg3.N) (p : Fin 2048) (i : Fin 12288) (hi : i.val = 2048 * (t.val / 4) + p.val) (h : Fin 40) :
    xb3_2 V c t (ix2 p h) = (V c main_v3 : S12288x40.Idx → Elt Ideal .bf16) (ix2 i h) := by
  unfold xb3_2 iblk3
  rw [View.read_apply]
  show V c main_v3 _ = V c main_v3 _
  exact congrArg (V c main_v3) (Shape.idx_ext₂
    (by show win3_2.index t 0 * 2048 + 1 * p.val = i.val; rw [(index3 t).2.2.1.1, hi]; omega)
    (by show win3_2.index t 1 * 40 + 1 * h.val = h.val; rw [(index3 t).2.2.1.2]; omega))

theorem xb3_3_apply (c : Dev nD) (t : Fin cfg3.N) (p : Fin 2048) (i : Fin 12288) (hi : i.val = 2048 * (t.val / 4) + p.val) :
    xb3_3 V c t (ix2 p (0 : Fin 1)) = (V c main_v0_1 : S12288x1.Idx → Elt Ideal .f32) (ix2 i (0 : Fin 1)) := by
  unfold xb3_3 iblk3
  rw [View.read_apply]
  show V c main_v0_1 _ = V c main_v0_1 _
  exact congrArg (V c main_v0_1) (Shape.idx_ext₂
    (by show win3_3.index t 0 * 2048 + 1 * p.val = i.val; rw [(index3 t).2.2.2.1.1, hi]; omega)
    (by show win3_3.index t 1 * 1 + 1 * 0 = 0; rw [(index3 t).2.2.2.1.2]))

theorem xb3_4_apply (c : Dev nD) (t : Fin cfg3.N) (h : Fin 40) :
    xb3_4 V c t (ix2 (0 : Fin 1) h) = (V c main_v4 : S1x40.Idx → Elt Ideal .f32) (ix2 (0 : Fin 1) h) := by
  unfold xb3_4 iblk3
  rw [View.read_apply]
  show V c main_v4 _ = V c main_v4 _
  exact congrArg (V c main_v4) (Shape.idx_ext₂
    (by show win3_4.index t 0 * 1 + 1 * 0 = 0; rw [(index3 t).2.2.2.2.1.1])
    (by show win3_4.index t 1 * 40 + 1 * h.val = h.val; rw [(index3 t).2.2.2.2.1.2]; omega))

def term3 (c : Dev nD) (i : Fin 12288) (j : Fin 40) : Fin 12288 → EReal :=
  fun k => (fun a b : EReal => a * b) (V c main_v0_0 (ix2 i k)) (V c main_v3 (ix2 k j))

/-- After the last of a row block's four steps the accumulator holds the adjacency's whole row times the features' column. -/
theorem acc3_last (c : Dev nD) (t : Fin cfg3.N) (h3 : t.val % 4 = 3) (p : Fin 2048) (i : Fin 12288)
    (hi : i.val = 2048 * (t.val / 4) + p.val) (j : Fin 40) :
    acc3 (F := Ideal) V c t.val t.isLt (ix2 p j) = ∑ k : Fin 12288, term3 V c i j k :=
  Cert.Gcn.Sums.last_eq_sum 3072 4 (by decide) (fun n hn => acc3 (F := Ideal) V c n hn (ix2 p j))
    (fun u => ∑ x : Fin 3072, (fun a b : EReal => a * b) (xb3_0 V c u (ix2 p x)) (xb3_1 V c u (ix2 x j)))
    (fun u h0 => by rw [acc3_reset V c u h0, PayRead.k3_pay2_apply, PayRead.k3_pay1_apply])
    (fun u h0 => by rw [acc3_step V c u h0, PayRead.k3_pay2_apply])
    (term3 V c i j) t h3
    (fun u hu => Finset.sum_congr rfl fun x _ => by
      rw [xb3_0_apply V c u p i (hu ▸ hi) x ⟨_, Cert.Gcn.Sums.blk_lt (nb := 4) (Nat.mod_lt _ (by decide)) x.isLt⟩ rfl, xb3_1_apply V c u x ⟨_, Cert.Gcn.Sums.blk_lt (nb := 4) (Nat.mod_lt _ (by decide)) x.isLt⟩ rfl j]
      rfl)

def G3 (c : Dev nD) : Buf (Elt Ideal) ((c : Thread nD τ).loc main_v5) :=
  fun idx : S12288x40.Idx => Cert.Gcn.logSoftmaxRow (Cert.Gcn.logits (fun i k => V c main_v0_0 (ix2 i k)) (fun k j => V c main_v3 (ix2 k j))
    (fun i => V c main_v0_1 (ix2 i (0 : Fin 1))) (fun j => V c main_v4 (ix2 (0 : Fin 1) j)) (idx 0)) (idx 1)

/-- What a row block's last point stores at a block entry is the formula at the entry's place in the array. -/
theorem flushed3_at (c : Dev nD) (t : Fin cfg3.N) (h3 : t.val % 4 = 3) (p : Fin 2048) (j : Fin 40) :
    k3_pay3 (F := Ideal) (xb3_3 V c t) (acc3 V c t.val t.isLt) (xb3_2 V c t) (xb3_4 V c t) (ix2 p j)
      = G3 V c (((cfg3.win 5).blk t).view.emb (ix2 p j)) := by
  have hN : cfg3.N = 24 := N_3
  have ht := t.isLt
  have hp := p.isLt
  obtain ⟨i, hi⟩ : ∃ i : Fin 12288, i.val = 2048 * (t.val / 4) + p.val := ⟨⟨_, by omega⟩, rfl⟩
  have he : (((cfg3.win 5).blk t).view.emb (ix2 p j) : S12288x40.Idx) = ix2 i j :=
    Shape.idx_ext₂ (by show win3_5.index t 0 * 2048 + 1 * p.val = i.val; rw [(index3 t).2.2.2.2.2.1, hi]; omega)
      (by show win3_5.index t 1 * 40 + 1 * j.val = j.val; rw [(index3 t).2.2.2.2.2.2]; omega)
  rw [he, PayRead.k3_pay3_apply]
  simp only [acc3_last V c t h3 p i hi, xb3_2_apply V c t p i hi, xb3_3_apply V c t p i hi, xb3_4_apply V c t]
  rfl

theorem flushed3_eq (c : Dev nD) (t : Fin cfg3.N) (hf : (cfg3.win 5).flush t = true) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3
  refine funext fun (y : S2048x40.Idx) => ?_
  rw [View.read_apply, eq_ix2 (n0 := 2048) (n1 := 40) y]
  exact flushed3_at V c t ((flush3_5 t).mp hf) (y 0) (y 1)

/-- Every entry of the array lies in the block stored by the last step of its row block. -/
theorem cover3 (c : Dev nD) (i : ((cfg3.win 5).arr.view.loc (c.tc : Thread nD τ)).2.ty.Idx) :
    ∃ t : Fin cfg3.N, (cfg3.win 5).flush t = true ∧ i ∈ ((cfg3.win 5).blk t).view.set := by
  have hN : cfg3.N = 24 := N_3
  have h0 : ((i 0 : Fin 12288) : Nat) < 12288 := (i 0).isLt
  have h1 : ((i 1 : Fin 40) : Nat) < 40 := (i 1).isLt
  obtain ⟨t, ht⟩ : ∃ t : Fin cfg3.N, t.val = 4 * ((i 0 : Fin 12288).val / 2048) + 3 := ⟨⟨_, by omega⟩, rfl⟩
  refine ⟨t, (flush3_5 t).mpr (by omega), ?_⟩
  show i ∈ ((View.whole main_v5).slice (win3_5.rect t)).set
  rw [View.set_slice_whole, Rect.mem_set_unit]
  refine Fin.forall_fin_two.mpr ⟨?_, ?_⟩
  · show win3_5.index t 0 * 2048 ≤ (i 0 : Nat) ∧ (i 0 : Nat) < win3_5.index t 0 * 2048 + 2048
    rw [(index3 t).2.2.2.2.2.1]; omega
  · show win3_5.index t 1 * 40 ≤ (i 1 : Nat) ∧ (i 1 : Nat) < win3_5.index t 1 * 40 + 40
    rw [(index3 t).2.2.2.2.2.2]; omega

theorem final3 (c : Dev nD) (i : Fin 12288) (j : Fin 40) :
    ((dat3 (F := Ideal) V c).arrAt 5 cfg3.N) (ix2 i j)
      = Cert.Gcn.logSoftmaxRow (Cert.Gcn.logits (fun i k => V c main_v0_0 (ix2 i k)) (fun k j => V c main_v3 (ix2 k j))
          (fun i => V c main_v0_1 (ix2 i (0 : Fin 1))) (fun j => V c main_v4 (ix2 (0 : Fin 1) j)) i) j := by
  rw [(dat3 (F := Ideal) V c).arrAt_eq_of_cover 5 (G3 V c) (flushed3_eq V c) (cover3 c)]
  rfl

end Cert.KernelIdeal.Hand

end
-- ==== Proof.KIBridge.lean ====
import proofs.«431332_j55946243997874_3_alg».proof.Proof.KIRun
import proofs.«431332_j55946243997874_3_alg».proof.Proof.KIVal0
import proofs.«431332_j55946243997874_3_alg».proof.Proof.KIVal1
import proofs.«431332_j55946243997874_3_alg».proof.Proof.KIVal2
import proofs.«431332_j55946243997874_3_alg».proof.Proof.KIVal3
import proofs.«431332_j55946243997874_3_alg».proof.Proof.Formulas
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL
open Idealize.SL.Sem

section Bridge

open Idealize.ShloMosaic.ValueIdx

variable (m : (ℓ : Loc nD τ sig) → Buf (Elt Ideal) ℓ)
abbrev mX (c : Dev nD) : Cert.Gcn.Mat 12288 512 := fun i f => m ((c.tc : Thread nD τ).loc main_arg0) (ix2 i f)
abbrev mA (c : Dev nD) : Cert.Gcn.Mat 12288 12288 := fun i k => m ((c.tc : Thread nD τ).loc main_arg1) (ix2 i k)
abbrev mW1 (c : Dev nD) : Cert.Gcn.Mat 512 16 := fun f h => m ((c.tc : Thread nD τ).loc main_arg2) (ix2 f h)
abbrev mb1 (c : Dev nD) : Fin 16 → EReal := fun h => m ((c.tc : Thread nD τ).loc main_arg3) (ix1 h)
abbrev mW2 (c : Dev nD) : Cert.Gcn.Mat 16 40 := fun h j => m ((c.tc : Thread nD τ).loc main_arg4) (ix2 h j)
abbrev mb2 (c : Dev nD) : Fin 40 → EReal := fun j => m ((c.tc : Thread nD τ).loc main_arg5) (ix1 j)

/-- An array no region before region 2 reads or writes, and the first reshape does not write, is the launch memory's until then. -/
theorem W3_launch (c : Dev nD) (b : Ref sig .tc) (hb0 : ∀ w, Pipeline.arrRef spec0 w ≠ b) (hb1 : ∀ w, Pipeline.arrRef spec1 w ≠ b) (hb2 : b ≠ main_v2) :
    W3 m c (Proc.devRef .tc b) = m ((c.tc : Thread nD τ).loc b) :=
  (W3_of_ne m c b hb2).trans <| (W2_of_ne m c b hb1).trans <| (W1_of_ne m c b hb0).trans rfl

/-- Between region 2's entry and region 3's only region 2's result and the second bias row are written. -/
theorem W5_of_W3 (c : Dev nD) (b : Ref sig .tc) (hb3 : b ≠ main_v3) (hb4 : b ≠ main_v4) :
    W5 m c (Proc.devRef .tc b) = W3 m c (Proc.devRef .tc b) :=
  (W5_of_ne m c b hb4).trans (W4_of_ne m c b hb3)

/-- Region 0's first result is the adjacency, and nothing writes it again. -/
theorem V3_v00 (c : Dev nD) : (fun i k => V3 m c main_v0_0 (ix2 i k)) = mA m c :=
  funext fun i => funext fun k =>
    (congrFun ((W3_of_ne m c main_v0_0 (by decide)).trans <| (W2_of_ne m c main_v0_0 (by decide)).trans (W1_arr m c 1)) (ix2 i k)).trans
      (final0_adj (V0 m) c i k)

theorem V1_v01 (c : Dev nD) : (fun i => V1 m c main_v0_1 (ix2 i (0 : Fin 1))) = Cert.Gcn.dinv (mA m c) :=
  funext fun i => (congrFun (W1_arr m c 2) (ix2 i (0 : Fin 1))).trans (final0_dinv (V0 m) c i)

/-- Region 0's second result is the degree factor; region 1 reads it and leaves it as it was. -/
theorem V3_v01 (c : Dev nD) : (fun i => V3 m c main_v0_1 (ix2 i (0 : Fin 1))) = Cert.Gcn.dinv (mA m c) :=
  (funext fun i => congrFun ((W3_of_ne m c main_v0_1 (by decide)).trans <| (W2_arr m c 2).trans <|
    ((dat1 (V1 m) c).arrAt_in 2 rfl _).trans (A_eq1 (V1 m) c 2)) (ix2 i (0 : Fin 1))).trans (V1_v01 m c)

/-- Region 1's result is the scaled features of the arguments as launched. -/
theorem V3_v1 (c : Dev nD) : (fun k h => V3 m c main_v1 (ix2 k h)) = Cert.Gcn.scaledXW (mX m c) (mW1 m c) (Cert.Gcn.dinv (mA m c)) :=
  funext fun k => funext fun h =>
    (congrFun ((W3_of_ne m c main_v1 (by decide)).trans (W2_arr m c 3)) (ix2 k h)).trans <| (final1 (V1 m) c k h).trans <| by
      rw [V1_v01 m c,
        show (fun i f => V1 m c main_arg0 (ix2 i f)) = mX m c from funext fun i => funext fun f => congrFun (W1_of_ne m c main_arg0 (by decide)) (ix2 i f),
        show (fun f j => V1 m c main_arg2 (ix2 f j)) = mW1 m c from funext fun f => funext fun j => congrFun (W1_of_ne m c main_arg2 (by decide)) (ix2 f j)]

/-- A bias row is its argument vector cast to one row. -/
theorem V3_v2 (c : Dev nD) : (fun h => V3 m c main_v2 (ix2 (0 : Fin 1) h)) = mb1 m c := by
  have e : W3 m c (Proc.devRef .tc main_v2) = shapeCast S1x16 (W2 m c (Proc.devRef .tc main_arg3)) shapeCasts_S16_S1x16 := by
    unfold W3
    after_results
    rfl
  refine funext fun h => (congrFun e (ix2 (0 : Fin 1) h)).trans <| (shapeCast_a_1a_apply _ _ (0 : Fin 1) h).trans ?_
  exact congrFun ((W2_of_ne m c main_arg3 (by decide)).trans <| (W1_of_ne m c main_arg3 (by decide)).trans rfl) (ix1 h)

theorem V5_v4 (c : Dev nD) : (fun j => V5 m c main_v4 (ix2 (0 : Fin 1) j)) = mb2 m c := by
  have e : W5 m c (Proc.devRef .tc main_v4) = shapeCast S1x40 (W4 m c (Proc.devRef .tc main_arg5)) shapeCasts_S40_S1x40 := by
    unfold W5
    after_results
    rfl
  refine funext fun j => (congrFun e (ix2 (0 : Fin 1) j)).trans <| (shapeCast_a_1a_apply _ _ (0 : Fin 1) j).trans ?_
  exact congrFun ((W4_of_ne m c main_arg5 (by decide)).trans (W3_launch m c main_arg5 (by decide) (by decide) (by decide))) (ix1 j)

/-- Region 2's result is the first layer's formula of the arguments as launched. -/
theorem V5_v3 (c : Dev nD) : (fun k j => V5 m c main_v3 (ix2 k j))
    = Cert.Gcn.layer1 (mA m c) (Cert.Gcn.scaledXW (mX m c) (mW1 m c) (Cert.Gcn.dinv (mA m c))) (Cert.Gcn.dinv (mA m c)) (mb1 m c) (mW2 m c) :=
  funext fun k => funext fun j =>
    (congrFun ((W5_of_ne m c main_v3 (by decide)).trans (W4_out m c)) (ix2 k j)).trans <| (final2 (V3 m) c k j).trans <| by
      rw [V3_v00 m c, V3_v1 m c, V3_v01 m c, V3_v2 m c,
        show (fun h j => V3 m c main_arg4 (ix2 h j)) = mW2 m c from
          funext fun h => funext fun j => congrFun (W3_launch m c main_arg4 (by decide) (by decide) (by decide)) (ix2 h j)]

/-- What the last region leaves in the result array is the kernel's formula of the six arguments as launched. -/
theorem result_eq (c : Dev nD) (i : Fin 12288) (j : Fin 40) :
    (result m c) (ix2 i j)
      = Cert.Gcn.kernelOut (fun i f => m ((c.tc : Thread nD τ).loc main_arg0) (ix2 i f)) (fun i k => m ((c.tc : Thread nD τ).loc main_arg1) (ix2 i k)) (fun f h => m ((c.tc : Thread nD τ).loc main_arg2) (ix2 f h)) (fun h => m ((c.tc : Thread nD τ).loc main_arg3) (ix1 h)) (fun h j => m ((c.tc : Thread nD τ).loc main_arg4) (ix2 h j)) (fun j => m ((c.tc : Thread nD τ).loc main_arg5) (ix1 j)) i j :=
  (congrFun (W6_out m c) (ix2 i j)).trans <| (final3 (V5 m) c i j).trans <| by
    rw [V5_v3 m c, V5_v4 m c,
      show (fun i k => V5 m c main_v0_0 (ix2 i k)) = mA m c from
        (funext fun i => funext fun k => congrFun (W5_of_W3 m c main_v0_0 (by decide) (by decide)) (ix2 i k)).trans (V3_v00 m c),
      show (fun i => V5 m c main_v0_1 (ix2 i (0 : Fin 1))) = Cert.Gcn.dinv (mA m c) from
        (funext fun i => congrFun (W5_of_W3 m c main_v0_1 (by decide) (by decide)) (ix2 i (0 : Fin 1))).trans (V3_v01 m c)]
    rfl

end Bridge

end Cert.KernelIdeal.Hand

end
-- ==== Proof.RefValue.lean ====
import proofs.«431332_j55946243997874_3_alg».proof.Proof.RefRead
import proofs.«431332_j55946243997874_3_alg».proof.Proof.Formulas
import Idealize.ShloMosaic.PureOps.Ideal.Laws
import Mathlib.Data.Finset.Fold

noncomputable section

open scoped BigOperators

namespace Cert.Gcn.RefSide

open Idealize.ShloMosaic Idealize.ShloMosaic.ValueIdx Cert.ReferenceIdeal Cert.ReferenceIdeal.Gen Cert.ReferenceIdeal.ReadP

abbrev B (S : Shape) : Type := (⟨S, .f32⟩ : BufTy).Contents (Elt Ideal)

theorem eye_apply (i k : Fin 12288) :
    val_main_v5 (F := Ideal) (ix2 i k) = if i = k then (1 : EReal) else 0 := by
  rw [val_main_v5_apply, val_main_v4_apply, val_main_v3_apply, val_main_v2_apply, val_main_v0_apply, val_main_v1_apply, val_main_c_apply]
  exact eye_word i k

variable (x0 : B S12288x512) (x1 : B S12288x12288) (x2 : B S512x16) (x3 : B S16) (x4 : B S16x40) (x5 : B S40)

theorem aHat_apply (i k : Fin 12288) :
    val_main_v6 (F := Ideal) x1 (ix2 i k) = aHat (fun i k => x1 (ix2 i k)) i k := by
  rw [val_main_v6_apply, eye_apply]
  rfl

theorem negInf_bits : Ideal.ofBits .f32 0xFF800000#32 = (⊥ : EReal) := by
  simp [Ideal.ofBits, Ideal.ieee]

theorem dinv_apply (i : Fin 12288) :
    val_main_v8 (F := Ideal) x1 (ix1 i) = refDinv (fun i k => x1 (ix2 i k)) i := by
  rw [val_main_v8_apply, val_main_v7_apply, val_main_cst_apply]
  simp only [Ideal.hostUnary_rsqrt_def, Ideal.ofBits_def, Ideal.ofBits_zero_f32]
  unfold refDinv
  refine congrArg (fun s => Ideal.rsqrt (0 + s)) (Finset.sum_congr rfl fun k _ => ?_)
  have e : idx_main_v7 (ix1 i) k = ix2 i k := eq_ix2 _
  rw [e, aHat_apply]

theorem norm_apply (i k : Fin 12288) :
    val_main_v14 (F := Ideal) x1 (ix2 i k) = norm (fun i k => x1 (ix2 i k)) i k := by
  rw [val_main_v14_apply, val_main_v11_apply, val_main_v13_apply, val_main_v12_apply, val_main_v10_apply, val_main_v9_apply, aHat_apply]
  have e1 : idx_main_v9 (idx_main_v10 (ix2 i k)) = ix1 i := eq_ix1 _
  have e2 : idx_main_v12 (idx_main_v13 (ix2 i k)) = ix1 k := eq_ix1 _
  rw [e1, e2, dinv_apply, dinv_apply]
  rfl

theorem xw_apply (k : Fin 12288) (h : Fin 16) :
    val_main_v15 (F := Ideal) x0 x2 (ix2 k h) = ∑ f : Fin 512, x0 (ix2 k f) * x2 (ix2 f h) := by
  rw [val_main_v15_apply]
  refine Finset.sum_congr rfl fun f _ => ?_
  have el : lidx_main_v15 (ix2 k h) f = ix2 k f := eq_ix2 _
  have er : ridx_main_v15 (ix2 k h) f = ix2 f h := eq_ix2 _
  rw [el, er]

theorem hidden_apply (i : Fin 12288) (h : Fin 16) :
    val_main_v20 (F := Ideal) x0 x1 x2 x3 (ix2 i h)
      = refHidden (fun i f => x0 (ix2 i f)) (fun i k => x1 (ix2 i k)) (fun f h => x2 (ix2 f h)) (fun h => x3 (ix1 h)) i h := by
  rw [val_main_v20_apply, val_main_v19_apply, val_main_v16_apply, val_main_v18_apply, val_main_v17_apply,
    val_main_call0_v0_apply, val_main_call0_cst_apply]
  have eb : idx_main_v17 (idx_main_v18 (ix2 i h)) = ix1 h := eq_ix1 _
  rw [eb]
  simp only [Ideal.maximumf_def, Ideal.addf_def, Ideal.ofBits_def, Ideal.ofBits_zero_f32]
  unfold refHidden
  refine congrArg (fun s => max (s + x3 (ix1 h)) 0) (Finset.sum_congr rfl fun k _ => ?_)
  have el : lidx_main_v16 (ix2 i h) k = ix2 i k := eq_ix2 _
  have er : ridx_main_v16 (ix2 i h) k = ix2 k h := eq_ix2 _
  rw [el, er, norm_apply, xw_apply]

theorem logits_apply (i : Fin 12288) (j : Fin 40) :
    val_main_v25 (F := Ideal) x0 x1 x2 x3 x4 x5 (ix2 i j)
      = refLogits (fun i f => x0 (ix2 i f)) (fun i k => x1 (ix2 i k)) (fun f h => x2 (ix2 f h)) (fun h => x3 (ix1 h))
          (fun h j => x4 (ix2 h j)) (fun j => x5 (ix1 j)) i j := by
  rw [val_main_v25_apply, val_main_v22_apply, val_main_v24_apply, val_main_v23_apply]
  have eb : idx_main_v23 (idx_main_v24 (ix2 i j)) = ix1 j := eq_ix1 _
  rw [eb]
  simp only [Ideal.addf_def]
  unfold refLogits
  refine congrArg (fun s => s + x5 (ix1 j)) (Finset.sum_congr rfl fun k _ => ?_)
  have el : lidx_main_v22 (ix2 i j) k = ix2 i k := eq_ix2 _
  have er : ridx_main_v22 (ix2 i j) k = ix2 k j := eq_ix2 _
  rw [el, er, norm_apply, val_main_v21_apply]
  refine congrArg (fun s => _ * s) (Finset.sum_congr rfl fun h _ => ?_)
  have el' : lidx_main_v21 (ix2 k j) h = ix2 k h := eq_ix2 _
  have er' : ridx_main_v21 (ix2 k j) h = ix2 h j := eq_ix2 _
  rw [el', er', hidden_apply]

theorem lift_row (hR : S12288x40.Reduces [1] S12288) (i : Fin 12288) (k : Fin (S12288x40.size 1)) :
    hR.lift (ix1 i) k = ix2 i (⟨k.val, k.isLt⟩ : Fin 40) := by
  funext c; apply Fin.ext
  match c with
  | ⟨0, _⟩ => rfl
  | ⟨1, _⟩ => rfl

theorem rowMax_apply (y : B S12288x40) (h' : S12288x40.ReducesTo [1] S12288) (hu : 0 < S_.numel) (i : Fin 12288) :
    (Host.reduce (FloatOps.maximumf (F := Ideal) (φ := .f32)) y (val_main_call1_cst (F := Ideal)) h' hu : B S12288) (ix1 i)
      = Finset.univ.fold max (⊥ : EReal) (fun j' : Fin 40 => y (ix2 i j')) := by
  have hR : S12288x40.Reduces [1] S12288 := by decide
  rw [Host.reduce_eq_fold_single (FloatOps.maximumf (F := Ideal) (φ := .f32)) y _ h' hR hu]
  have hb : (val_main_call1_cst (F := Ideal)) (Shape.Idx.first hu) = (⊥ : EReal) := negInf_bits
  rw [hb]
  have hf : (y ∘ hR.lift (ix1 i)) = fun k : Fin 40 => y (ix2 i k) := funext fun k => congrArg y (lift_row hR i k)
  exact congrArg (fun f => Finset.fold max (⊥ : EReal) f (Finset.univ : Finset (Fin 40))) hf

theorem shift_apply (i : Fin 12288) :
    val_main_call1_v2 (F := Ideal) x0 x1 x2 x3 x4 x5 (ix1 i)
      = max ⊥ (Finset.univ.fold max ⊥ (refLogits (fun i f => x0 (ix2 i f)) (fun i k => x1 (ix2 i k)) (fun f h => x2 (ix2 f h))
          (fun h => x3 (ix1 h)) (fun h j => x4 (ix2 h j)) (fun j => x5 (ix1 j)) i)) := by
  rw [val_main_call1_v2_apply, val_main_call1_v1_apply, val_main_call1_cst_0_apply]
  unfold val_main_call1_v0
  rw [rowMax_apply]
  simp only [Ideal.maximumf_def, Ideal.ofBits_def, negInf_bits]
  refine congrArg (fun f => max ⊥ (Finset.fold max (⊥ : EReal) f (Finset.univ : Finset (Fin 40)))) (funext fun j' => ?_)
  exact logits_apply x0 x1 x2 x3 x4 x5 i j'

theorem shifted_apply (i : Fin 12288) (j : Fin 40) :
    val_main_call1_v5 (F := Ideal) x0 x1 x2 x3 x4 x5 (ix2 i j)
      = refLogits (fun i f => x0 (ix2 i f)) (fun i k => x1 (ix2 i k)) (fun f h => x2 (ix2 f h))
          (fun h => x3 (ix1 h)) (fun h j => x4 (ix2 h j)) (fun j => x5 (ix1 j)) i j
        - max ⊥ (Finset.univ.fold max ⊥ (refLogits (fun i f => x0 (ix2 i f)) (fun i k => x1 (ix2 i k)) (fun f h => x2 (ix2 f h))
          (fun h => x3 (ix1 h)) (fun h j => x4 (ix2 h j)) (fun j => x5 (ix1 j)) i)) := by
  rw [val_main_call1_v5_apply, val_main_call1_v4_apply, val_main_call1_v3_apply]
  have e : idx_main_call1_v3 (idx_main_call1_v4 (ix2 i j)) = ix1 i := eq_ix1 _
  rw [e, shift_apply, logits_apply]
  rfl

theorem out_apply (i : Fin 12288) (j : Fin 40) :
    val_main_v26 (F := Ideal) x0 x1 x2 x3 x4 x5 (ix2 i j)
      = refOut (fun i f => x0 (ix2 i f)) (fun i k => x1 (ix2 i k)) (fun f h => x2 (ix2 f h))
          (fun h => x3 (ix1 h)) (fun h j => x4 (ix2 h j)) (fun j => x5 (ix1 j)) i j := by
  rw [val_main_v26_apply, val_main_call1_v10_apply, val_main_call1_v9_apply, val_main_call1_v8_apply, val_main_call1_v7_apply,
    val_main_call1_cst_1_apply, shifted_apply]
  have e : idx_main_call1_v8 (idx_main_call1_v10 (ix2 i j)) = ix1 i := eq_ix1 _
  rw [e]
  simp only [Ideal.subf_def, Ideal.hostUnary_log_def, Ideal.ofBits_def, Ideal.ofBits_zero_f32]
  unfold refOut refLogSoftmaxRow
  refine congrArg (fun s => _ - Ideal.log (0 + s)) (Finset.sum_congr rfl fun j' _ => ?_)
  have e7 : idx_main_call1_v7 (ix1 i) j' = ix2 i j' := eq_ix2 _
  rw [e7, val_main_call1_v6_apply, shifted_apply]
  rfl

theorem ref_value (m : (ℓ : Loc nD τ sig) → Buf (Elt Ideal) ℓ) (c : Dev nD) (i : Fin 12288) (j : Fin 40) :
    (Cert.ReferenceIdeal.ValueP.res_out0 (F := Ideal) m c) (ix2 i j)
      = Cert.Gcn.refOut (fun i f => m ((c.tc : Thread nD τ).loc main_arg0) (ix2 i f)) (fun i k => m ((c.tc : Thread nD τ).loc main_arg1) (ix2 i k))
          (fun f h => m ((c.tc : Thread nD τ).loc main_arg2) (ix2 f h)) (fun h => m ((c.tc : Thread nD τ).loc main_arg3) (ix1 h))
          (fun h j => m ((c.tc : Thread nD τ).loc main_arg4) (ix2 h j)) (fun j => m ((c.tc : Thread nD τ).loc main_arg5) (ix1 j)) i j := by
  have h : (Cert.ReferenceIdeal.ValueP.res_out0 (F := Ideal) m c : B S12288x40)
      = val_main_v26 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := val_main_v26_eq m c
  exact (congrFun h (ix2 i j)).trans (out_apply _ _ _ _ _ _ i j)

end Cert.Gcn.RefSide

end
-- ==== Proof.PreFacts.lean ====
import proofs.«431332_j55946243997874_3_alg».proof.Pre_finite_inputs
import proofs.«431332_j55946243997874_3_alg».proof.Proof.Formulas
import Idealize.ShloMosaic.Lib.ReduceAll
import Idealize.ShloMosaic.Lib.ValueIdx
import Idealize.ShloMosaic.Lib.StableHlo.Predicate
import Idealize.ShloMosaic.PureOps.Ideal.Laws

noncomputable section

open scoped BigOperators

namespace Cert.Gcn.PreRead

open Idealize.ShloMosaic Idealize.ShloMosaic.ValueIdx Cert.Pre_finite_inputs

instance : Subsingleton S_.Idx := ⟨fun a b => funext fun d => d.elim0⟩

theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

theorem real_of_mask {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) :=
  real_of_abs_lt_top (x i) h

theorem eye_apply [Cert.Pre_finite_inputs.Facts] (i k : Fin 12288) :
    (uitofp (F := Ideal) .f32 (cmpi .eq (addi (iotaInDim S12288x12288 32 0)
        (broadcastInDim S12288x12288 ![] Facts.bcast_S_S12288x12288 (constantI S_ 32 0#32))) (iotaInDim S12288x12288 32 1)) :
      FVec Ideal S12288x12288 .f32) (ix2 i k) = if i = k then (1 : EReal) else 0 :=
  Cert.Gcn.eye_word i k

theorem rowsum_read [Cert.Pre_finite_inputs.Facts] (a1 E : FVec Ideal S12288x12288 .f32) (i : Fin 12288) :
    Host.reduceAdd (F := Ideal) (addf a1 E) (constant (F := Ideal) S_ .f32 0x00000000#32)
        Facts.reducesTo_S12288x12288_S12288_d1 Facts.h_S_ (ix1 i)
      = 0 + ∑ k : Fin 12288, (a1 (ix2 i k) + E (ix2 i k)) := by
  have hR : S12288x12288.Reduces [1] S12288 := by decide
  show Ideal.hostReduceAdd Facts.reducesTo_S12288x12288_S12288_d1 (addf a1 E) (Ideal.ofBits .f32 0x00000000#32) (ix1 i) = _
  refine (Ideal.hostReduceAdd_single _ hR _ _ _).trans ?_
  rw [Ideal.ofBits_zero_f32]
  refine congrArg (fun z : EReal => 0 + z) (Finset.sum_congr rfl fun k _ => ?_)
  have hl : hR.lift (ix1 i) k = ix2 i k := by
    funext d
    match d with
    | ⟨0, _⟩ => rfl
    | ⟨1, _⟩ => rfl
  show a1 (hR.lift (ix1 i) k) + E (hR.lift (ix1 i) k) = _
  rw [hl]
  rfl

theorem rowsum_pos [Cert.Pre_finite_inputs.Facts] (a1 E : FVec Ideal S12288x12288 .f32)
    (hE : ∀ i k : Fin 12288, E (ix2 i k) = if i = k then (1 : EReal) else 0) (i : Fin 12288)
    (h : cmpf .ogt (Host.reduceAdd (F := Ideal) (addf a1 E) (constant (F := Ideal) S_ .f32 0x00000000#32)
            Facts.reducesTo_S12288x12288_S12288_d1 Facts.h_S_)
          (broadcastInDim S12288 ![] Facts.bcast_S_S12288 (constant (F := Ideal) S_ .f32 0x00000000#32)) (ix1 i) = 1#1) :
    (0 : EReal) < 0 + ∑ k : Fin 12288, Cert.Gcn.aHat (fun i k => a1 (ix2 i k)) i k := by
  have h' : Ideal.cmp .ogt (Host.reduceAdd (F := Ideal) (addf a1 E) (constant (F := Ideal) S_ .f32 0x00000000#32)
            Facts.reducesTo_S12288x12288_S12288_d1 Facts.h_S_ (ix1 i)) (Ideal.ofBits .f32 0x00000000#32) = 1#1 := h
  rw [rowsum_read, Ideal.ofBits_zero_f32] at h'
  have h2 := of_decide_eq_true ((StableHlo.Predicate.ofBool_eq_one_iff _).1 h')
  refine lt_of_lt_of_eq h2 (congrArg (fun z : EReal => 0 + z) (Finset.sum_congr rfl fun k _ => ?_))
  rw [hE]
  rfl

theorem facts_of_pre [Cert.Pre_finite_inputs.Facts] (a0 : FVec Ideal S12288x512 .f32) (a1 : FVec Ideal S12288x12288 .f32) (a2 : FVec Ideal S512x16 .f32) (a3 : FVec Ideal S16 .f32) (a4 : FVec Ideal S16x40 .f32) (a5 : FVec Ideal S40 .f32)
    (h : Cert.Pre_finite_inputs.fn (F := Ideal) a0 a1 a2 a3 a4 a5 = fun _ => 1#1) :
    (∀ (i : Fin 12288) (f : Fin 512), ∃ r : ℝ, a0 (ix2 i f) = (r : EReal)) ∧ (∀ (i k : Fin 12288), ∃ r : ℝ, a1 (ix2 i k) = (r : EReal))
    ∧ (∀ (f : Fin 512) (j : Fin 16), ∃ r : ℝ, a2 (ix2 f j) = (r : EReal)) ∧ (∀ j : Fin 16, ∃ r : ℝ, a3 (ix1 j) = (r : EReal))
    ∧ (∀ (p : Fin 16) (j : Fin 40), ∃ r : ℝ, a4 (ix2 p j) = (r : EReal)) ∧ (∀ j : Fin 40, ∃ r : ℝ, a5 (ix1 j) = (r : EReal))
    ∧ (∀ i : Fin 12288, (0 : EReal) < 0 + ∑ k : Fin 12288, Cert.Gcn.aHat (fun i k => a1 (ix2 i k)) i k) := by
  have e := congrFun h ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨e0, e1⟩, e2⟩, e3⟩, e4⟩, e5⟩, e6⟩ := e
  refine ⟨fun i f => ?_, fun i k => ?_, fun f j => ?_, fun j => ?_, fun p j => ?_, fun j => ?_, fun i => ?_⟩
  · exact real_of_mask a0 _ (ix2 i f) (Host.reduce_andi_all _ _ _ _ ix0 e0 (ix2 i f))
  · exact real_of_mask a1 _ (ix2 i k) (Host.reduce_andi_all _ _ _ _ ix0 e1 (ix2 i k))
  · exact real_of_mask a2 _ (ix2 f j) (Host.reduce_andi_all _ _ _ _ ix0 e2 (ix2 f j))
  · exact real_of_mask a3 _ (ix1 j) (Host.reduce_andi_all _ _ _ _ ix0 e3 (ix1 j))
  · exact real_of_mask a4 _ (ix2 p j) (Host.reduce_andi_all _ _ _ _ ix0 e4 (ix2 p j))
  · exact real_of_mask a5 _ (ix1 j) (Host.reduce_andi_all _ _ _ _ ix0 e5 (ix1 j))
  · exact rowsum_pos a1 _ (fun i k => eye_apply i k) i (Host.reduce_andi_all _ _ _ _ ix0 e6 (ix1 i))

end Cert.Gcn.PreRead

end
-- ==== Proof.Algebra.lean ====
import Mathlib.Data.EReal.Operations
import Mathlib.Algebra.BigOperators.Ring.Finset
import Mathlib.Tactic.Ring
import proofs.«431332_j55946243997874_3_alg».proof.Proof.Formulas

noncomputable section

open scoped BigOperators

namespace Cert.Gcn

open Idealize.ShloMosaic

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

theorem coe_ite (c : Prop) [Decidable c] (x y : ℝ) :
    (if c then (x : EReal) else (y : EReal)) = ((if c then x else y : ℝ) : EReal) := by
  split_ifs <;> rfl

theorem agg_real {n : Nat} (a d m : Fin n → ℝ) (i : Fin n) :
    d i * ((∑ k, a k * (m k * d k)) + m i * d i) = ∑ k, ((a k + if i = k then 1 else 0) * d i) * d k * m k := by
  have h : ∀ k, ((a k + if i = k then 1 else 0) * d i) * d k * m k
      = d i * (a k * (m k * d k)) + (if i = k then d i * (m k * d k) else 0) := by
    intro k; split_ifs <;> ring
  simp_rw [h]
  rw [Finset.sum_add_distrib, Finset.sum_ite_eq, ← Finset.mul_sum]
  simp only [Finset.mem_univ, if_true]
  ring

theorem deg_eq (A : Mat 12288 12288) (i : Fin 12288) : (0 : EReal) + ∑ k, aHat A i k = (∑ k, A i k) + 1 := by
  simp only [aHat]
  rw [zero_add, Finset.sum_add_distrib, Finset.sum_ite_eq]
  simp

theorem refDinv_eq_dinv (A : Mat 12288 12288) : refDinv A = dinv A := by
  funext i
  simp only [refDinv, dinv, deg_eq]

theorem dinv_real (a : Fin 12288 → Fin 12288 → ℝ)
    (hdeg : ∀ i, (0 : EReal) < 0 + ∑ k, aHat (fun i k => (a i k : EReal)) i k) :
    ∃ d : Fin 12288 → ℝ, dinv (fun i k => (a i k : EReal)) = fun i => (d i : EReal) := by
  refine ⟨fun i => (Real.sqrt ((∑ k, a i k) + 1))⁻¹, ?_⟩
  funext i
  have h := hdeg i
  rw [deg_eq] at h
  simp only [dinv]
  rw [coe_sum, ← EReal.coe_one, ← EReal.coe_add] at h ⊢
  rw [Ideal.rsqrt_coe]
  have hpos : (0 : ℝ) < (∑ k, a i k) + 1 := by exact_mod_cast h
  rw [if_neg (not_lt.mpr hpos.le), if_neg hpos.ne']

def xwR (x : Fin 12288 → Fin 512 → ℝ) (w : Fin 512 → Fin 16 → ℝ) (k : Fin 12288) (h : Fin 16) : ℝ :=
  ∑ f, x k f * w f h

def hidR (a : Fin 12288 → Fin 12288 → ℝ) (d : Fin 12288 → ℝ) (xw : Fin 12288 → Fin 16 → ℝ) (b : Fin 16 → ℝ)
    (i : Fin 12288) (h : Fin 16) : ℝ :=
  max (d i * ((∑ k, a i k * (xw k h * d k)) + xw i h * d i) + b h) 0

def rhidR (a : Fin 12288 → Fin 12288 → ℝ) (d : Fin 12288 → ℝ) (xw : Fin 12288 → Fin 16 → ℝ) (b : Fin 16 → ℝ)
    (i : Fin 12288) (h : Fin 16) : ℝ :=
  max ((∑ k, ((a i k + if i = k then 1 else 0) * d i) * d k * xw k h) + b h) 0

def hwR (hid : Fin 12288 → Fin 16 → ℝ) (w : Fin 16 → Fin 40 → ℝ) (k : Fin 12288) (j : Fin 40) : ℝ :=
  ∑ h, hid k h * w h j

def logR (a : Fin 12288 → Fin 12288 → ℝ) (d : Fin 12288 → ℝ) (m : Fin 12288 → Fin 40 → ℝ) (b : Fin 40 → ℝ)
    (i : Fin 12288) (j : Fin 40) : ℝ :=
  d i * ((∑ k, a i k * (d k * m k j)) + d i * m i j) + b j

def rlogR (a : Fin 12288 → Fin 12288 → ℝ) (d : Fin 12288 → ℝ) (m : Fin 12288 → Fin 40 → ℝ) (b : Fin 40 → ℝ)
    (i : Fin 12288) (j : Fin 40) : ℝ :=
  (∑ k, ((a i k + if i = k then 1 else 0) * d i) * d k * m k j) + b j

theorem hidR_eq (a : Fin 12288 → Fin 12288 → ℝ) (d : Fin 12288 → ℝ) (xw : Fin 12288 → Fin 16 → ℝ) (b : Fin 16 → ℝ) :
    hidR a d xw b = rhidR a d xw b := by
  funext i h
  have e : d i * ((∑ k, a i k * (xw k h * d k)) + xw i h * d i)
      = ∑ k, ((a i k + if i = k then 1 else 0) * d i) * d k * xw k h := agg_real (a i) d (fun k => xw k h) i
  simp only [hidR, rhidR, e]

theorem logR_eq (a : Fin 12288 → Fin 12288 → ℝ) (d : Fin 12288 → ℝ) (m : Fin 12288 → Fin 40 → ℝ) (b : Fin 40 → ℝ) :
    logR a d m b = rlogR a d m b := by
  funext i j
  have e : d i * ((∑ k, a i k * (m k j * d k)) + m i j * d i)
      = ∑ k, ((a i k + if i = k then 1 else 0) * d i) * d k * m k j := agg_real (a i) d (fun k => m k j) i
  have c : (∑ k, a i k * (d k * m k j)) = ∑ k, a i k * (m k j * d k) :=
    Finset.sum_congr rfl (fun k _ => by ring)
  simp only [logR, rlogR]
  rw [c, mul_comm (d i) (m i j), e]

theorem scaledXW_coe (x : Fin 12288 → Fin 512 → ℝ) (w : Fin 512 → Fin 16 → ℝ) (d : Fin 12288 → ℝ) :
    scaledXW (fun i f => (x i f : EReal)) (fun f h => (w f h : EReal)) (fun i => (d i : EReal))
      = fun i h => ((xwR x w i h * d i : ℝ) : EReal) := by
  funext i h
  simp only [scaledXW, xwR, ← EReal.coe_mul, coe_sum]

theorem layer1_coe (a : Fin 12288 → Fin 12288 → ℝ) (d : Fin 12288 → ℝ) (xw : Fin 12288 → Fin 16 → ℝ)
    (b : Fin 16 → ℝ) (w : Fin 16 → Fin 40 → ℝ) :
    layer1 (fun i k => (a i k : EReal)) (fun i h => ((xw i h * d i : ℝ) : EReal)) (fun i => (d i : EReal))
        (fun h => (b h : EReal)) (fun h j => (w h j : EReal))
      = fun i j => ((d i * hwR (hidR a d xw b) w i j : ℝ) : EReal) := by
  funext i j
  simp only [layer1, hwR, hidR, ← EReal.coe_zero, ← EReal.coe_mul, coe_sum, ← EReal.coe_add, coe_max]

theorem logits_coe (a : Fin 12288 → Fin 12288 → ℝ) (d : Fin 12288 → ℝ) (m : Fin 12288 → Fin 40 → ℝ)
    (b : Fin 40 → ℝ) :
    logits (fun i k => (a i k : EReal)) (fun i j => ((d i * m i j : ℝ) : EReal)) (fun i => (d i : EReal))
        (fun j => (b j : EReal))
      = fun i j => ((logR a d m b i j : ℝ) : EReal) := by
  funext i j
  simp only [logits, logR, ← EReal.coe_mul, coe_sum, ← EReal.coe_add]

theorem norm_coe (a : Fin 12288 → Fin 12288 → ℝ) (d : Fin 12288 → ℝ)
    (hd : refDinv (fun i k => (a i k : EReal)) = fun i => (d i : EReal)) :
    norm (fun i k => (a i k : EReal))
      = fun i k => ((((a i k + if i = k then 1 else 0) * d i) * d k : ℝ) : EReal) := by
  funext i k
  simp only [norm, aHat, hd, ← EReal.coe_one, ← EReal.coe_zero, coe_ite, ← EReal.coe_add, ← EReal.coe_mul]

theorem refHidden_coe (x : Fin 12288 → Fin 512 → ℝ) (a : Fin 12288 → Fin 12288 → ℝ) (w : Fin 512 → Fin 16 → ℝ)
    (b : Fin 16 → ℝ) (d : Fin 12288 → ℝ)
    (hd : refDinv (fun i k => (a i k : EReal)) = fun i => (d i : EReal)) :
    refHidden (fun i f => (x i f : EReal)) (fun i k => (a i k : EReal)) (fun f h => (w f h : EReal))
        (fun h => (b h : EReal))
      = fun i h => ((rhidR a d (xwR x w) b i h : ℝ) : EReal) := by
  funext i h
  simp only [refHidden, norm_coe a d hd, rhidR, xwR, ← EReal.coe_zero, ← EReal.coe_mul, coe_sum, ← EReal.coe_add,
    coe_max]

theorem refLogits_coe (x : Fin 12288 → Fin 512 → ℝ) (a : Fin 12288 → Fin 12288 → ℝ) (w1 : Fin 512 → Fin 16 → ℝ)
    (c1 : Fin 16 → ℝ) (w2 : Fin 16 → Fin 40 → ℝ) (c2 : Fin 40 → ℝ) (d : Fin 12288 → ℝ)
    (hd : refDinv (fun i k => (a i k : EReal)) = fun i => (d i : EReal)) :
    refLogits (fun i f => (x i f : EReal)) (fun i k => (a i k : EReal)) (fun f h => (w1 f h : EReal))
        (fun h => (c1 h : EReal)) (fun h j => (w2 h j : EReal)) (fun j => (c2 j : EReal))
      = fun i j => ((rlogR a d (hwR (rhidR a d (xwR x w1) c1) w2) c2 i j : ℝ) : EReal) := by
  funext i j
  simp only [refLogits, refHidden_coe x a w1 c1 d hd, norm_coe a d hd, rlogR, hwR, ← EReal.coe_mul, coe_sum,
    ← EReal.coe_add]

theorem logits_eq (x : Fin 12288 → Fin 512 → ℝ) (a : Fin 12288 → Fin 12288 → ℝ) (w1 : Fin 512 → Fin 16 → ℝ)
    (c1 : Fin 16 → ℝ) (w2 : Fin 16 → Fin 40 → ℝ) (c2 : Fin 40 → ℝ) (d : Fin 12288 → ℝ)
    (hk : dinv (fun i k => (a i k : EReal)) = fun i => (d i : EReal)) :
    logits (fun i k => (a i k : EReal))
        (layer1 (fun i k => (a i k : EReal))
          (scaledXW (fun i f => (x i f : EReal)) (fun f h => (w1 f h : EReal)) (dinv (fun i k => (a i k : EReal))))
          (dinv (fun i k => (a i k : EReal))) (fun h => (c1 h : EReal)) (fun h j => (w2 h j : EReal)))
        (dinv (fun i k => (a i k : EReal))) (fun j => (c2 j : EReal))
      = refLogits (fun i f => (x i f : EReal)) (fun i k => (a i k : EReal)) (fun f h => (w1 f h : EReal))
        (fun h => (c1 h : EReal)) (fun h j => (w2 h j : EReal)) (fun j => (c2 j : EReal)) := by
  have hr : refDinv (fun i k => (a i k : EReal)) = fun i => (d i : EReal) := by rw [refDinv_eq_dinv, hk]
  rw [hk, scaledXW_coe, layer1_coe, logits_coe, refLogits_coe x a w1 c1 w2 c2 d hr, hidR_eq, logR_eq]

theorem refLogSoftmaxRow_eq (v : Fin 40 → EReal) : refLogSoftmaxRow v = logSoftmaxRow v := by
  funext j
  simp only [refLogSoftmaxRow, logSoftmaxRow, bot_le, max_eq_right, zero_add]

theorem kernelOut_eq_refOut (X : Mat 12288 512) (A : Mat 12288 12288) (W1 : Mat 512 16) (b1 : Fin 16 → EReal) (W2 : Mat 16 40) (b2 : Fin 40 → EReal)
    (hX : ∀ i f, ∃ r : ℝ, X i f = (r : EReal)) (hA : ∀ i k, ∃ r : ℝ, A i k = (r : EReal)) (hW1 : ∀ f h, ∃ r : ℝ, W1 f h = (r : EReal))
    (hb1 : ∀ h, ∃ r : ℝ, b1 h = (r : EReal)) (hW2 : ∀ h j, ∃ r : ℝ, W2 h j = (r : EReal)) (hb2 : ∀ j, ∃ r : ℝ, b2 j = (r : EReal))
    (hdeg : ∀ i, (0 : EReal) < 0 + ∑ k, aHat A i k) (i : Fin 12288) (j : Fin 40) :
    kernelOut X A W1 b1 W2 b2 i j = refOut X A W1 b1 W2 b2 i j := by
  choose x hx using hX
  choose a ha using hA
  choose w1 hw1 using hW1
  choose c1 hc1 using hb1
  choose w2 hw2 using hW2
  choose c2 hc2 using hb2
  obtain rfl : X = fun i f => (x i f : EReal) := funext fun i => funext fun f => hx i f
  obtain rfl : A = fun i k => (a i k : EReal) := funext fun i => funext fun k => ha i k
  obtain rfl : W1 = fun f h => (w1 f h : EReal) := funext fun f => funext fun h => hw1 f h
  obtain rfl : b1 = fun h => (c1 h : EReal) := funext fun h => hc1 h
  obtain rfl : W2 = fun h j => (w2 h j : EReal) := funext fun h => funext fun j => hw2 h j
  obtain rfl : b2 = fun j => (c2 j : EReal) := funext fun j => hc2 j
  obtain ⟨d, hd⟩ := dinv_real a hdeg
  simp only [kernelOut, refOut]
  rw [refLogSoftmaxRow_eq, logits_eq x a w1 c1 w2 c2 d hd]

end Cert.Gcn

end
-- ==== Proof.lean ====
import proofs.«431332_j55946243997874_3_alg».proof.Defs
import proofs.«431332_j55946243997874_3_alg».proof.Proof.Gen.Kernel
import proofs.«431332_j55946243997874_3_alg».proof.Proof.Gen.KernelIdeal
import proofs.«431332_j55946243997874_3_alg».proof.Proof.Gen.ReferenceIdeal
import proofs.«431332_j55946243997874_3_alg».proof.Proof.Gen.Pre_finite_inputs
import proofs.«431332_j55946243997874_3_alg».proof.Proof.KSame
import proofs.«431332_j55946243997874_3_alg».proof.Proof.KIRun
import proofs.«431332_j55946243997874_3_alg».proof.Proof.KIBridge
import proofs.«431332_j55946243997874_3_alg».proof.Proof.RefValue
import proofs.«431332_j55946243997874_3_alg».proof.Proof.PreFacts
import proofs.«431332_j55946243997874_3_alg».proof.Proof.Algebra
import Idealize.ShloMosaic.Adequacy
import Idealize.ShloMosaic.Init

noncomputable section

namespace Cert.Proof

open Idealize.ShloMosaic Idealize.ShloMosaic.ValueIdx Idealize.SL.Sem Cert.KernelIdeal.Hand

-- The two programs share their body table and their @main, so the first runs as the second does.
theorem frame_p : Cert.frame_Kernel := fun m ρ _ => by
  rw [defs_same]
  exact (θ_run (Cert.KernelIdeal.defs (F := Bits)) _ _).mono (fun _ h c => (h c).2) (run_values (F := Bits) m ρ)

theorem frame_pi : Cert.frame_KernelIdeal := fun m ρ _ =>
  (θ_run (Cert.KernelIdeal.defs (F := Ideal)) _ _).mono (fun _ h c => (h c).2) (run_values (F := Ideal) m ρ)

theorem frame_ri : Cert.frame_ReferenceIdeal := fun m ρ _ =>
  (θ_run (Cert.ReferenceIdeal.defs (F := Ideal)) _ _).mono (fun _ h c => (h c).2) (Cert.ReferenceIdeal.ValueP.run (F := Ideal) m ρ)

theorem preserves : Cert.preserves_Kernel_KernelIdeal := trivial

-- Under the precondition every input is a real and every degree is positive, where the two formulas agree.
theorem algebraic : Cert.algebraic_KernelIdeal_ReferenceIdeal := by
  intro m ρ m' ρ' hpre hagree
  refine ⟨fun c => result (F := Ideal) m c, run_values (F := Ideal) m ρ, ?_⟩
  refine (θ_run (Cert.ReferenceIdeal.defs (F := Ideal)) _ _).mono (fun _ h c => ⟨(h c).1.trans ?_, (h c).2⟩)
    (Cert.ReferenceIdeal.ValueP.run (F := Ideal) m' ρ')
  funext idx
  obtain ⟨i, j, rfl⟩ : ∃ (i : Fin 12288) (j : Fin 40), idx = ix2 i j := ⟨idx 0, idx 1, eq_ix2 idx⟩
  obtain ⟨hX, hA, hW1, hb1, hW2, hb2, hdeg⟩ := Cert.Gcn.PreRead.facts_of_pre _ _ _ _ _ _ (hpre c)
  refine (Cert.Gcn.RefSide.ref_value m' c i j).trans ?_
  rw [(hagree c).1, (hagree c).2.1, (hagree c).2.2.1, (hagree c).2.2.2.1, (hagree c).2.2.2.2.1, (hagree c).2.2.2.2.2]
  refine Eq.trans ?_ (result_eq m c i j).symm
  exact (Cert.Gcn.kernelOut_eq_refOut _ _ _ _ _ _ hX hA hW1 hb1 hW2 hb2 hdeg i j).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
